-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x30 : Shape := ⟨2, ![10000, 30]⟩
abbrev S10000x4 : Shape := ⟨2, ![10000, 4]⟩
abbrev S2x320000 : Shape := ⟨2, ![2, 320000]⟩
abbrev S34x128 : Shape := ⟨2, ![34, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S10000x30 : S_.BroadcastsInDim S10000x30 (![] : Fin 0 → Fin S10000x30.rank)
  reducesTo_S10000x30_S_d0_1 : S10000x30.ReducesTo [0, 1] S_
  h_S_ : 0 < S_.numel
  bcast_S_S10000x4 : S_.BroadcastsInDim S10000x4 (![] : Fin 0 → Fin S10000x4.rank)
  reducesTo_S10000x4_S_d0_1 : S10000x4.ReducesTo [0, 1] S_
  bcast_S_S34x128 : S_.BroadcastsInDim S34x128 (![] : Fin 0 → Fin S34x128.rank)
  reducesTo_S34x128_S_d0_1 : S34x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_

variable [Facts]

def fn_part4 {F : FTy → Type} [FloatOps F] (main_arg2 : IVec S2x320000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x320000 32 := broadcastInDim S2x320000 ![] bcast_S_S2x320000 main_c_26
  let main_v70 : IVec S2x320000 1 := cmpi .sge main_arg2 main_v69
  let main_c_27 : IVec S_ 32 := constantI S_ 32 10000#32
  let main_v71 : IVec S2x320000 32 := broadcastInDim S2x320000 ![] bcast_S_S2x320000 main_c_27
  let main_v72 : IVec S2x320000 1 := cmpi .slt main_arg2 main_v71
  let main_v73 : IVec S2x320000 1 := andi main_v70 main_v72
  let main_c_28 : IVec S_ 1 := constantI S_ 1 1#1
  let main_v74 : IVec S_ 1 := (fun x v => Host.reduce IntOp.andi x v reducesTo_S2x320000_S_d0_1 h_S_) main_v73 main_c_28
  let main_v75 : IVec S_ 1 := andi main_v68 main_v74
  main_v75

def fn_part3 {F : FTy → Type} [FloatOps F] (main_arg2 : IVec S2x320000 32) (main_arg12 : FVec F S128 .f32) (main_arg13 : FVec F S128x1 .f32) (main_arg14 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg2 main_v63 main_v67

def fn_part2 {F : FTy → Type} [FloatOps F] (main_arg2 : IVec S2x320000 32) (main_arg8 : FVec F S128 .f32) (main_arg9 : FVec F S128x1 .f32) (main_arg10 : FVec F S1 .f32) (main_arg11 : FVec F S128x128 .f32) (main_arg12 : FVec F S128 .f32) (main_arg13 : FVec F S128x1 .f32) (main_arg14 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_arg13 main_arg14 main_v48 main_v49 main_v50

def fn_part1 {F : FTy → Type} [FloatOps F] (main_arg2 : IVec S2x320000 32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : FVec F S128x128 .f32) (main_arg12 : FVec F S128 .f32) (main_arg13 : FVec F S128x1 .f32) (main_arg14 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S10000x30 .f32) (main_arg1 : FVec F S10000x4 .f32) (main_arg2 : IVec S2x320000 32) (main_arg3 : FVec F S34x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : FVec F S128x128 .f32) (main_arg12 : FVec F S128 .f32) (main_arg13 : FVec F S128x1 .f32) (main_arg14 : FVec F S1 .f32) : IVec S_ 1 :=
  let main_v0 : FVec F S10000x30 .f32 := Host.absf main_arg0
  let main_cst : FVec F S_ .f32 := constant S_ .f32 0x7F800000#32
  let main_v1 : FVec F S10000x30 .f32 := broadcastInDim S10000x30 ![] bcast_S_S10000x30 main_cst
  let main_v2 : IVec S10000x30 1 := cmpf .olt main_v0 main_v1
  let main_c : IVec S_ 1 := constantI S_ 1 1#1
  let main_v3 : IVec S_ 1 := (fun x v => Host.reduce IntOp.andi x v reducesTo_S10000x30_S_d0_1 h_S_) main_v2 main_c
  let main_v4 : FVec F S10000x4 .f32 := Host.absf main_arg1
  let main_cst_0 : FVec F S_ .f32 := constant S_ .f32 0x7F800000#32
  let main_v5 : FVec F S10000x4 .f32 := broadcastInDim S10000x4 ![] bcast_S_S10000x4 main_cst_0
  let main_v6 : IVec S10000x4 1 := cmpf .olt main_v4 main_v5
  let main_c_1 : IVec S_ 1 := constantI S_ 1 1#1
  let main_v7 : IVec S_ 1 := (fun x v => Host.reduce IntOp.andi x v reducesTo_S10000x4_S_d0_1 h_S_) main_v6 main_c_1
  let main_v8 : IVec S_ 1 := andi main_v3 main_v7
  let main_v9 : FVec F S34x128 .f32 := Host.absf main_arg3
  let main_cst_2 : FVec F S_ .f32 := constant S_ .f32 0x7F800000#32
  let main_v10 : FVec F S34x128 .f32 := broadcastInDim S34x128 ![] bcast_S_S34x128 main_cst_2
  let main_v11 : IVec S34x128 1 := cmpf .olt main_v9 main_v10
  let main_c_3 : IVec S_ 1 := constantI S_ 1 1#1
  let main_v12 : IVec S_ 1 := (fun x v => Host.reduce IntOp.andi x v reducesTo_S34x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S10000x30 : Shape := ⟨2, ![10000, 30]⟩
abbrev S10000x4 : Shape := ⟨2, ![10000, 4]⟩
abbrev S2x320000 : Shape := ⟨2, ![2, 320000]⟩
abbrev S34x128 : Shape := ⟨2, ![34, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S112 : Shape := ⟨1, ![112]⟩
abbrev S330112 : Shape := ⟨1, ![330112]⟩
abbrev S1x330112 : Shape := ⟨2, ![1, 330112]⟩
abbrev S10000x34 : Shape := ⟨2, ![10000, 34]⟩
abbrev S112x34 : Shape := ⟨2, ![112, 34]⟩
abbrev S10112x34 : Shape := ⟨2, ![10112, 34]⟩
abbrev S1x128 : Shape := ⟨2, ![1, 128]⟩
abbrev S10112x128 : Shape := ⟨2, ![10112, 128]⟩
abbrev S128x10112 : Shape := ⟨2, ![128, 10112]⟩
abbrev S1x1 : Shape := ⟨2, ![1, 1]⟩
abbrev S10112x1 : Shape := ⟨2, ![10112, 1]⟩
abbrev S10000x1 : Shape := ⟨2, ![10000, 1]⟩

abbrev nBuf : Space → Nat
  | .hbm => 93
  | .vmem => 38
  | .smem => 0
  | _ => 0

abbrev bufTy : (tb : Table) → Fin (tcTables nBuf tb) → BufTy
  | .hbm, ⟨0, _⟩ => ⟨S10000x30, .f32⟩
  | .hbm, ⟨1, _⟩ => ⟨S10000x4, .f32⟩
  | .hbm, ⟨2, _⟩ => ⟨S2x320000, .i32⟩
  | .hbm, ⟨3, _⟩ => ⟨S34x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S10000, .i32⟩
  | .hbm, ⟨16, _⟩ => ⟨S1x320000, .i32⟩
  | .hbm, ⟨17, _⟩ => ⟨S320000, .i32⟩
  | .hbm, ⟨18, _⟩ => ⟨S330000, .i32⟩
  | .hbm, ⟨19, _⟩ => ⟨S1x320000, .i32⟩
  | .hbm, ⟨20, _⟩ => ⟨S320000, .i32⟩
  | .hbm, ⟨21, _⟩ => ⟨S330000, .i32⟩
  | .hbm, ⟨22, _⟩ => ⟨S_, .f32⟩
  | .hbm, ⟨23, _⟩ => ⟨S10000, .f32⟩
  | .hbm, ⟨24, _⟩ => ⟨S_, .i32⟩
  | .hbm, ⟨25, _⟩ => ⟨S330000, .i32⟩
  | .hbm, ⟨26, _⟩ => ⟨S330000, .i1⟩
  | .hbm, ⟨27, _⟩ => ⟨S_, .i32⟩
  | .hbm, ⟨28, _⟩ => ⟨S330000, .i32⟩
  | .hbm, ⟨29, _⟩ => ⟨S330000, .i32⟩
  | .hbm, ⟨30, _⟩ => ⟨S330000, .i32⟩
  | .hbm, ⟨31, _⟩ => ⟨S330000x1, .i32⟩
  | .hbm, ⟨32, _⟩ => ⟨S_, .f32⟩
  | .hbm, ⟨33, _⟩ => ⟨S330000, .f32⟩
  | .hbm, ⟨34, _⟩ => ⟨S10000, .f32⟩
  | .hbm, ⟨35, _⟩ => ⟨S_, .f32⟩
  | .hbm, ⟨36, _⟩ => ⟨S10000, .f32⟩
  | .hbm, ⟨37, _⟩ => ⟨S10000, .i1⟩
  | .hbm, ⟨38, _⟩ => ⟨S_, .f32⟩
  | .hbm, ⟨39, _⟩ => ⟨S10000, .f32⟩
  | .hbm, ⟨40, _⟩ => ⟨S10000, .f32⟩
  | .hbm, ⟨41, _⟩ => ⟨S10000, .f32⟩
  | .hbm, ⟨42, _⟩ => ⟨S_, .f32⟩
  | .hbm, ⟨43, _⟩ => ⟨S_, .f32⟩
  | .hbm, ⟨44, _⟩ => ⟨S10000, .f32⟩
  | .hbm, ⟨45, _⟩ => ⟨S10000, .f32⟩
  | .hbm, ⟨46, _⟩ => ⟨S_, .i32⟩
  | .hbm, ⟨47, _⟩ => ⟨S330000, .i32⟩
  | .hbm, ⟨48, _⟩ => ⟨S330000, .i1⟩
  | .hbm, ⟨49, _⟩ => ⟨S_, .i32⟩
  | .hbm, ⟨50, _⟩ => ⟨S330000, .i32⟩
  | .hbm, ⟨51, _⟩ => ⟨S330000, .i32⟩
  | .hbm, ⟨52, _⟩ => ⟨S330000, .i32⟩
  | .hbm, ⟨53, _⟩ => ⟨S330000x1, .i32⟩
  | .hbm, ⟨54, _⟩ => ⟨S330000, .f32⟩
  | .hbm, ⟨55, _⟩ => ⟨S_, .i32⟩
  | .hbm, ⟨56, _⟩ => ⟨S330000, .i32⟩
  | .hbm, ⟨57, _⟩ => ⟨S330000, .i1⟩
  | .hbm, ⟨58, _⟩ => ⟨S_, .i32⟩
  | .hbm, ⟨59, _⟩ => ⟨S330000, .i32⟩
  | .hbm, ⟨60, _⟩ => ⟨S330000, .i32⟩
  | .hbm, ⟨61, _⟩ => ⟨S330000, .i32⟩
  | .hbm, ⟨62, _⟩ => ⟨S330000x1, .i32⟩
  | .hbm, ⟨63, _⟩ => ⟨S330000, .f32⟩
  | .hbm, ⟨64, _⟩ => ⟨S330000, .f32⟩
  | .hbm, ⟨65, _⟩ => ⟨S_, .i32⟩
  | .hbm, ⟨66, _⟩ => ⟨S112, .i32⟩
  | .hbm, ⟨67, _⟩ => ⟨S330112, .i32⟩
  | .hbm, ⟨68, _⟩ => ⟨S_, .i32⟩
  | .hbm, ⟨69, _⟩ => ⟨S112, .i32⟩
  | .hbm, ⟨70, _⟩ => ⟨S330112, .i32⟩
  | .hbm, ⟨71, _⟩ => ⟨S_, .f32⟩
  | .hbm, ⟨72, _⟩ => ⟨S112, .f32⟩
  | .hbm, ⟨73, _⟩ => ⟨S330112, .f32⟩
  | .hbm, ⟨74, _⟩ => ⟨S1x330112, .i32⟩
  | .hbm, ⟨75, _⟩ => ⟨S1x330112, .i32⟩
  | .hbm, ⟨76, _⟩ => ⟨S1x330112, .f32⟩
  | .hbm, ⟨77, _⟩ => ⟨S10000x34, .f32⟩
  | .hbm, ⟨78, _⟩ => ⟨S_, .f32⟩
  | .hbm, ⟨79, _⟩ => ⟨S112x34, .f32⟩
  | .hbm, ⟨80, _⟩ => ⟨S10112x34, .f32⟩
  | .hbm, ⟨81, _⟩ => ⟨S1x128, .f32⟩
  | .hbm, ⟨82, _⟩ => ⟨S1x128, .f32⟩
  | .hbm, ⟨83, _⟩ => ⟨S10112x128, .f32⟩
  | .hbm, ⟨84, _⟩ => ⟨S10112x128, .f32⟩
  | .hbm, ⟨85, _⟩ => ⟨S1x128, .f32⟩
  | .hbm, ⟨86, _⟩ => ⟨S1x1, .f32⟩
  | .hbm, ⟨87, _⟩ => ⟨S1x128, .f32⟩
  | .hbm, ⟨88, _⟩ => ⟨S1x1, .f32⟩
  | .hbm, ⟨89, _⟩ => ⟨S10112x1, .f32⟩
  | .hbm, ⟨90, _⟩ => ⟨S10112x1, .f32⟩
  | .hbm, ⟨91, _⟩ => ⟨S10000x1, .f32⟩
  | .hbm, ⟨92, _⟩ => ⟨S10000x1, .f32⟩
  | .local _ .vmem, ⟨0, _⟩ => ⟨S10112x34, .f32⟩
  | .local _ .vmem, ⟨1, _⟩ => ⟨S34x128, .f32⟩
  | .local _ .vmem, ⟨2, _⟩ => ⟨S1x128, .f32⟩
  | .local _ .vmem, ⟨3, _⟩ => ⟨S1x128, .i32⟩
  | .local _ .vmem, ⟨4, _⟩ => ⟨S1x128, .i32⟩
  | .local _ .vmem, ⟨5, _⟩ => ⟨S1x128, .i32⟩
  | .local _ .vmem, ⟨6, _⟩ => ⟨S1x128, .i32⟩
  | .local _ .vmem, ⟨7, _⟩ => ⟨S1x128, .f32⟩
  | .local _ .vmem, ⟨8, _⟩ => ⟨S1x128, .f32⟩
  | .local _ .vmem, ⟨9, _⟩ => ⟨S10112x128, .f32⟩
  | .local _ .vmem, ⟨10, _⟩ => ⟨S10112x128, .f32⟩
  | .local _ .vmem, ⟨11, _⟩ => ⟨S10112x128, .f32⟩
  | .local _ .vmem, ⟨12, _⟩ => ⟨S10112x128, .f32⟩
  | .local _ .vmem, ⟨13, _⟩ => ⟨S128x128, .f32⟩
  | .local _ .vmem, ⟨14, _⟩ => ⟨S1x128, .f32⟩
  | .local _ .vmem, ⟨15, _⟩ => ⟨S1x128, .i32⟩
  | .local _ .vmem, ⟨16, _⟩ => ⟨S1x128, .i32⟩
  | .local _ .vmem, ⟨17, _⟩ => ⟨S1x128, .i32⟩
  | .local _ .vmem, ⟨18, _⟩ => ⟨S1x128, .i32⟩
  | .local _ .vmem, ⟨19, _⟩ => ⟨S1x128, .f32⟩
  | .local _ .vmem, ⟨20, _⟩ => ⟨S1x128, .f32⟩
  | .local _ .vmem, ⟨21, _⟩ => ⟨S10112x128, .f32⟩
  | .local _ .vmem, ⟨22, _⟩ => ⟨S10112x128, .f32⟩
  | .local _ .vmem, ⟨23, _⟩ => ⟨S10112x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S128x1, .f32⟩
  | .local _ .vmem, ⟨29, _⟩ => ⟨S1x1, .f32⟩
  | .local _ .vmem, ⟨30, _⟩ => ⟨S128x128, .f32⟩
  | .local _ .vmem, ⟨31, _⟩ => ⟨S1x128, .f32⟩
  | .local _ .vmem, ⟨32, _⟩ => ⟨S128x1, .f32⟩
  | .local _ .vmem, ⟨33, _⟩ => ⟨S1x1, .f32⟩
  | .local _ .vmem, ⟨34, _⟩ => ⟨S128x1, .f32⟩
  | .local _ .vmem, ⟨35, _⟩ => ⟨S128x1, .f32⟩
  | .local _ .vmem, ⟨36, _⟩ => ⟨S128x1, .f32⟩
  | .local _ .vmem, ⟨37, _⟩ => ⟨S128x1, .f32⟩
  | _, _ => ⟨S10000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_7 : Ref sig .tc := ⟨.hbm, 55, rfl⟩
abbrev main_v29 : Ref sig .tc := ⟨.hbm, 56, rfl⟩
abbrev main_v30 : Ref sig .tc := ⟨.hbm, 57, rfl⟩
abbrev main_c_8 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_9 : Ref sig .tc := ⟨.hbm, 65, rfl⟩
abbrev main_v37 : Ref sig .tc := ⟨.hbm, 66, rfl⟩
abbrev main_v38 : Ref sig .tc := ⟨.hbm, 67, rfl⟩
abbrev main_c_10 : Ref sig .tc := ⟨.hbm, 68, rfl⟩
abbrev main_v39 : Ref sig .tc := ⟨.hbm, 69, rfl⟩
abbrev main_v40 : Ref sig .tc := ⟨.hbm, 70, rfl⟩
abbrev main_cst_11 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_12 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57_0 : Ref sig .tc := ⟨.hbm, 89, rfl⟩
abbrev main_v57_1 : Ref sig .tc := ⟨.hbm, 90, rfl⟩
abbrev main_v58 : Ref sig .tc := ⟨.hbm, 91, rfl⟩
abbrev main_v59 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc2_stg10_0 : Ref sig .tc := ⟨.vmem, 36, rfl⟩
abbrev cc2_stg10_1 : Ref sig .tc := ⟨.vmem, 37, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31
abbrev cc2_sem10_0 : DmaSem sig := 32
abbrev cc2_sem10_1 : DmaSem sig := 33

abbrev nD : Nat := 1
abbrev τ : Topo := Topo.v7x

variable {F : FTy → Type} [FloatOps F]

abbrev grid0 : Pipeline.Grid := ⟨1, ![2579], ![false]⟩

def k0_cond2 (i : grid0.Coords) : BitVec 1 :=
  let arg0 : BitVec 32 := BitVec.ofNat 32 (i 0).val
  let c2578_i32 : BitVec 32 := 2578#32
  let v36 : BitVec 1 := Scalar.cmpi .eq arg0 c2578_i32
  let v37 : BitVec 32 := Scalar.extui v36
  let c0_i32_13 : BitVec 32 := 0#32
  let v38 : BitVec 1 := Scalar.cmpi .ne v37 c0_i32_13
  v38

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10112x34 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S34x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S10112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![2579], ![false]⟩

def k1_cond2 (i : grid1.Coords) : BitVec 1 :=
  let arg0 : BitVec 32 := BitVec.ofNat 32 (i 0).val
  let c2578_i32 : BitVec 32 := 2578#32
  let v36 : BitVec 1 := Scalar.cmpi .eq arg0 c2578_i32
  let v37 : BitVec 32 := Scalar.extui v36
  let c0_i32_13 : BitVec 32 := 0#32
  let v38 : BitVec 1 := Scalar.cmpi .ne v37 c0_i32_13
  v38

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10112x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S10112x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![79], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S128x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S128x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S10000 : S_.BroadcastsInDim S10000 (![] : Fin 0 → Fin S10000.rank)
  bcast_S_S330000 : S_.BroadcastsInDim S330000 (![] : Fin 0 → Fin S330000.rank)
  bcast_S330000_S330000x1_0 : S330000.BroadcastsInDim S330000x1 (![0] : Fin 1 → Fin S330000x1.rank)
  bcast_S_S112 : S_.BroadcastsInDim S112 (![] : Fin 0 → Fin S112.rank)
  concatenates_S330000_S112_S330112_d0 : Shape.Concatenates [S330000, S112] S330112 0
  shapeCasts_S330112_S1x330112 : S330112.ShapeCasts S1x330112
  concatenates_S10000x30_S10000x4_S10000x34_d1 : Shape.Concatenates [S10000x30, S10000x4] S10000x34 1
  bcast_S_S112x34 : S_.BroadcastsInDim S112x34 (![] : Fin 0 → Fin S112x34.rank)
  concatenates_S10000x34_S112x34_S10112x34_d0 : Shape.Concatenates [S10000x34, S112x34] S10112x34 0
  shapeCasts_S128_S1x128 : S128.ShapeCasts S1x128
  inb_S10112x34_S10112x34_0_0 : ∀ a, (![0, 0] : Fin 2 → Nat) a + S10112x34.size a ≤ S10112x34.size a
  h_S10112x34 : 0 < S10112x34.numel
  shapeCasts_S10112x34_S10112x34 : S10112x34.ShapeCasts S10112x34
  bitsLt_bf16_f32 : FTy.bits .bf16 < FTy.bits .f32
  inb_S34x128_S34x128_0_0 : ∀ a, (![0, 0] : Fin 2 → Nat) a + S34x128.size a ≤ S34x128.size a
  h_S34x128 : 0 < S34x128.numel
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  inb_S1x128_S1x128_0_0 : ∀ a, (![0, 0] : Fin 2 → Nat) a + S1x128.size a ≤ S1x128.size a
  h_S1x128 : 0 < S1x128.numel
  shapeCasts_S1x128_S128 : S1x128.ShapeCasts S128
  iota_S128x10112_d1_w32 : S128x10112.Iotas .tc 32 [1]
  shapeCasts_S128_S128x1 : S128.ShapeCasts S128x1
  broadcasts_S128x1_S128x10112 : S128x1.Broadcasts S128x10112
  natLt_1_32 : 1 < 32
  broadcasts_S128x1_S128x128 : S128x1.Broadcasts S128x128
  iota_S10112x128_d0_w32 : S10112x128.Iotas .tc 32 [0]
  broadcasts_S1x128_S10112x128 : S1x128.Broadcasts S10112x128
  shapeCasts_S1x128_S1x128 : S1x128.ShapeCasts S1x128
  inb_S128x128_S128x128_0_0 : ∀ a, (![0, 0] : Fin 2 → Nat) a + S128x128.size a ≤ S128x128.size a
  h_S128x128 : 0 < S128x128.numel
  shapeCasts_S1_S1x1 : S1.ShapeCasts S1x1
  shapeCasts_S128x128_S128x128 : S128x128.ShapeCasts S128x128
  broadcasts_S1x128_S128x128 : S1x128.Broadcasts S128x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  slices_S10112x1_S10000x1_0_0 : S10112x1.Slices ![0, 0] S10000x1
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10112x34_S34x128_S10112x128_1_0_0_1_n_n_wf : DotDims.WF S10112x34 S34x128 S10112x128 [1] [0] [0] [1] [] []
  dot_S128x10112_S10112x128_S128x128_1_0_0_1_n_n_wf : DotDims.WF S128x10112 S10112x128 S128x128 [1] [0] [0] [1] [] []
  dot_S10112x128_S128x128_S10112x128_1_0_0_1_n_n_wf : DotDims.WF S10112x128 S128x128 S10112x128 [1] [0] [0] [1] [] []
  dot_S128x128_S128x128_S128x128_1_0_0_1_n_n_wf : DotDims.WF S128x128 S128x128 S128x128 [1] [0] [0] [1] [] []
  dot_S128x128_S128x1_S128x1_1_0_0_1_n_n_wf : DotDims.WF S128x128 S128x1 S128x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10112x34.size a ≤ S10112x34.size a
  hwx0_0 : ∀ i : grid0.Coords, EltTy.bits .f32 = 32 ∨ (Rect.block (s := S10112x34) S10112x34.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S34x128.size a ≤ S34x128.size a
  hwx0_1 : ∀ i : grid0.Coords, EltTy.bits .f32 = 32 ∨ (Rect.block (s := S34x128) S34x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x330112.size a
  hwx0_3 : ∀ i : grid0.Coords, EltTy.bits .i32 = 32 ∨ (Rect.block (s := S1x330112) S1x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x330112.size a
  hwx0_4 : ∀ i : grid0.Coords, EltTy.bits .i32 = 32 ∨ (Rect.block (s := S1x330112) S1x128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x330112.size a
  hwx0_5 : ∀ i : grid0.Coords, EltTy.bits .f32 = 32 ∨ (Rect.block (s := S1x330112) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10112x128.size a ≤ S10112x128.size a
  hwx0_6 : ∀ i : grid0.Coords, EltTy.bits .f32 = 32 ∨ (Rect.block (s := S10112x128) S10112x128.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10112x128.size a ≤ S10112x128.size a
  hwx1_0 : ∀ i : grid1.Coords, EltTy.bits .f32 = 32 ∨ (Rect.block (s := S10112x128) S10112x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x330112.size a
  hwx1_3 : ∀ i : grid1.Coords, EltTy.bits .i32 = 32 ∨ (Rect.block (s := S1x330112) S1x128.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x330112.size a
  hwx1_4 : ∀ i : grid1.Coords, EltTy.bits .i32 = 32 ∨ (Rect.block (s := S1x330112) S1x128.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x330112.size a
  hwx1_5 : ∀ i : grid1.Coords, EltTy.bits .f32 = 32 ∨ (Rect.block (s := S1x330112) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S10112x128.size a ≤ S10112x128.size a
  hwx1_6 : ∀ i : grid1.Coords, EltTy.bits .f32 = 32 ∨ (Rect.block (s := S10112x128) S10112x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x128.size a ≤ S10112x128.size a
  hwx2_0 : ∀ i : grid2.Coords, EltTy.bits .f32 = 32 ∨ (Rect.block (s := S10112x128) S128x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x1.size a ≤ S128x1.size a
  hwx2_7 : ∀ i : grid2.Coords, EltTy.bits .f32 = 32 ∨ (Rect.block (s := S128x1) S128x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S128x1.size a ≤ S10112x1.size a
  hwx2_9 : ∀ i : grid2.Coords, EltTy.bits .f32 = 32 ∨ (Rect.block (s := S10112x1) S128x1.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S128x1.size a ≤ S10112x1.size a
  hwx2_10 : ∀ i : grid2.Coords, EltTy.bits .f32 = 32 ∨ (Rect.block (s := S10112x1) S128x1.size (cc2_transform_10 i) (hinb2_10 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10112x34_S34x128_S10112x128_1_0_0_1_n_n : DotDims S10112x34 S34x128 S10112x128 where
  lhsContracting := [1]
  rhsContracting := [0]
  lhsNonContracting := [0]
  rhsNonContracting := [1]
  lhsBatch := []
  rhsBatch := []
  wf := dot_S10112x34_S34x128_S10112x128_1_0_0_1_n_n_wf
def dot_S128x10112_S10112x128_S128x128_1_0_0_1_n_n : DotDims S128x10112 S10112x128 S128x128 where
  lhsContracting := [1]
  rhsContracting := [0]
  lhsNonContracting := [0]
  rhsNonContracting := [1]
  lhsBatch := []
  rhsBatch := []
  wf := dot_S128x10112_S10112x128_S128x128_1_0_0_1_n_n_wf
def dot_S10112x128_S128x128_S10112x128_1_0_0_1_n_n : DotDims S10112x128 S128x128 S10112x128 where
  lhsContracting := [1]
  rhsContracting := [0]
  lhsNonContracting := [0]
  rhsNonContracting := [1]
  lhsBatch := []
  rhsBatch := []
  wf := dot_S10112x128_S128x128_S10112x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

abbrev win0_0 : Pipeline.Window sig grid0 :=
  Pipeline.Window.ofSpec (Memref.whole main_v48) S10112x34.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S34x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v45) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v51) S10112x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v51) S10112x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v52) S10112x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v52) S128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S128x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v56) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v57_0) S128x1.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v57_1) S128x1.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S10000x30 : Shape := ⟨2, ![10000, 30]⟩
abbrev S10000x4 : Shape := ⟨2, ![10000, 4]⟩
abbrev S2x320000 : Shape := ⟨2, ![2, 320000]⟩
abbrev S34x128 : Shape := ⟨2, ![34, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x34 : Shape := ⟨2, ![10000, 34]⟩
abbrev S10000x128 : Shape := ⟨2, ![10000, 128]⟩
abbrev S330000x128 : Shape := ⟨2, ![330000, 128]⟩
abbrev S1x128 : Shape := ⟨2, ![1, 128]⟩
abbrev S10000x1 : Shape := ⟨2, ![10000, 1]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S10000x30, .f32⟩
  | 1 => ⟨S10000x4, .f32⟩
  | 2 => ⟨S2x320000, .i32⟩
  | 3 => ⟨S34x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S128x128, .f32⟩
  | 12 => ⟨S128, .f32⟩
  | 13 => ⟨S128x1, .f32⟩
  | 14 => ⟨S1, .f32⟩
  | 15 => ⟨S10000, .i32⟩
  | 16 => ⟨S1x320000, .i32⟩
  | 17 => ⟨S320000, .i32⟩
  | 18 => ⟨S330000, .i32⟩
  | 19 => ⟨S1x320000, .i32⟩
  | 20 => ⟨S320000, .i32⟩
  | 21 => ⟨S330000, .i32⟩
  | 22 => ⟨S_, .f32⟩
  | 23 => ⟨S10000, .f32⟩
  | 24 => ⟨S_, .i32⟩
  | 25 => ⟨S330000, .i32⟩
  | 26 => ⟨S330000, .i1⟩
  | 27 => ⟨S_, .i32⟩
  | 28 => ⟨S330000, .i32⟩
  | 29 => ⟨S330000, .i32⟩
  | 30 => ⟨S330000, .i32⟩
  | 31 => ⟨S330000x1, .i32⟩
  | 32 => ⟨S_, .f32⟩
  | 33 => ⟨S330000, .f32⟩
  | 34 => ⟨S10000, .f32⟩
  | 35 => ⟨S_, .f32⟩
  | 36 => ⟨S10000, .f32⟩
  | 37 => ⟨S10000, .i1⟩
  | 38 => ⟨S_, .f32⟩
  | 39 => ⟨S10000, .f32⟩
  | 40 => ⟨S10000, .f32⟩
  | 41 => ⟨S10000, .f32⟩
  | 42 => ⟨S_, .f32⟩
  | 43 => ⟨S_, .f32⟩
  | 44 => ⟨S10000, .f32⟩
  | 45 => ⟨S10000, .f32⟩
  | 46 => ⟨S10000x34, .f32⟩
  | 47 => ⟨S10000x128, .f32⟩
  | 48 => ⟨S_, .i32⟩
  | 49 => ⟨S330000, .i32⟩
  | 50 => ⟨S330000, .i1⟩
  | 51 => ⟨S_, .i32⟩
  | 52 => ⟨S330000, .i32⟩
  | 53 => ⟨S330000, .i32⟩
  | 54 => ⟨S330000, .i32⟩
  | 55 => ⟨S330000x1, .i32⟩
  | 56 => ⟨S330000, .f32⟩
  | 57 => ⟨S_, .i32⟩
  | 58 => ⟨S330000, .i32⟩
  | 59 => ⟨S330000, .i1⟩
  | 60 => ⟨S_, .i32⟩
  | 61 => ⟨S330000, .i32⟩
  | 62 => ⟨S330000, .i32⟩
  | 63 => ⟨S330000, .i32⟩
  | 64 => ⟨S330000x1, .i32⟩
  | 65 => ⟨S330000, .f32⟩
  | 66 => ⟨S330000, .f32⟩
  | 67 => ⟨S_, .i32⟩
  | 68 => ⟨S330000, .i32⟩
  | 69 => ⟨S330000, .i1⟩
  | 70 => ⟨S_, .i32⟩
  | 71 => ⟨S330000, .i32⟩
  | 72 => ⟨S330000, .i32⟩
  | 73 => ⟨S330000, .i32⟩
  | 74 => ⟨S330000x1, .i32⟩
  | 75 => ⟨S330000x128, .f32⟩
  | 76 => ⟨S330000x1, .f32⟩
  | 77 => ⟨S330000x128, .f32⟩
  | 78 => ⟨S330000x128, .f32⟩
  | 79 => ⟨S_, .f32⟩
  | 80 => ⟨S10000x128, .f32⟩
  | 81 => ⟨S330000x1, .i32⟩
  | 82 => ⟨S10000x128, .f32⟩
  | 83 => ⟨S1x128, .f32⟩
  | 84 => ⟨S10000x128, .f32⟩
  | 85 => ⟨S10000x128, .f32⟩
  | 86 => ⟨S_, .f32⟩
  | 87 => ⟨S10000x128, .f32⟩
  | 88 => ⟨S10000x128, .f32⟩
  | 89 => ⟨S10000x128, .f32⟩
  | 90 => ⟨S_, .i32⟩
  | 91 => ⟨S330000, .i32⟩
  | 92 => ⟨S330000, .i1⟩
  | 93 => ⟨S_, .i32⟩
  | 94 => ⟨S330000, .i32⟩
  | 95 => ⟨S330000, .i32⟩
  | 96 => ⟨S330000, .i32⟩
  | 97 => ⟨S330000x1, .i32⟩
  | 98 => ⟨S330000, .f32⟩
  | 99 => ⟨S_, .i32⟩
  | 100 => ⟨S330000, .i32⟩
  | 101 => ⟨S330000, .i1⟩
  | 102 => ⟨S_, .i32⟩
  | 103 => ⟨S330000, .i32⟩
  | 104 => ⟨S330000, .i32⟩
  | 105 => ⟨S330000, .i32⟩
  | 106 => ⟨S330000x1, .i32⟩
  | 107 => ⟨S330000, .f32⟩
  | 108 => ⟨S330000, .f32⟩
  | 109 => ⟨S_, .i32⟩
  | 110 => ⟨S330000, .i32⟩
  | 111 => ⟨S330000, .i1⟩
  | 112 => ⟨S_, .i32⟩
  | 113 => ⟨S330000, .i32⟩
  | 114 => ⟨S330000, .i32⟩
  | 115 => ⟨S330000, .i32⟩
  | 116 => ⟨S330000x1, .i32⟩
  | 117 => ⟨S330000x128, .f32⟩
  | 118 => ⟨S330000x1, .f32⟩
  | 119 => ⟨S330000x128, .f32⟩
  | 120 => ⟨S330000x128, .f32⟩
  | 121 => ⟨S_, .f32⟩
  | 122 => ⟨S10000x128, .f32⟩
  | 123 => ⟨S330000x1, .i32⟩
  | 124 => ⟨S10000x128, .f32⟩
  | 125 => ⟨S1x128, .f32⟩
  | 126 => ⟨S10000x128, .f32⟩
  | 127 => ⟨S10000x128, .f32⟩
  | _ => ⟨S10000x30, .f32⟩

abbrev hbmTy0_1 (i : Nat) : BufTy := match i % 128 with
  | 0 => ⟨S_, .f32⟩
  | 1 => ⟨S10000x128, .f32⟩
  | 2 => ⟨S10000x128, .f32⟩
  | 3 => ⟨S10000x128, .f32⟩
  | 4 => ⟨S1x128, .f32⟩
  | 5 => ⟨S10000x128, .f32⟩
  | 6 => ⟨S10000x128, .f32⟩
  | 7 => ⟨S_, .f32⟩
  | 8 => ⟨S10000x128, .f32⟩
  | 9 => ⟨S10000x128, .f32⟩
  | 10 => ⟨S10000x1, .f32⟩
  | 11 => ⟨S1x1, .f32⟩
  | 12 => ⟨S10000x1, .f32⟩
  | 13 => ⟨S10000x1, .f32⟩
  | 14 => ⟨S10000x128, .f32⟩
  | 15 => ⟨S1x128, .f32⟩
  | 16 => ⟨S10000x128, .f32⟩
  | 17 => ⟨S10000x128, .f32⟩
  | 18 => ⟨S_, .f32⟩
  | 19 => ⟨S10000x128, .f32⟩
  | 20 => ⟨S10000x128, .f32⟩
  | 21 => ⟨S10000x1, .f32⟩
  | 22 => ⟨S1x1, .f32⟩
  | 23 => ⟨S10000x1, .f32⟩
  | 24 => ⟨S10000x1, .f32⟩
  | _ => ⟨S10000x30, .f32⟩

abbrev hbmTy (i : Nat) : BufTy := match i / 128 with
  | 0 => hbmTy0_0 i
  | 1 => hbmTy0_1 i
  | _ => ⟨S10000x30, .f32⟩

abbrev bufTy : (tb : Table) → Fin (tcTables nBuf tb) → BufTy
  | .hbm, ⟨i, _⟩ => hbmTy i
  | _, _ => ⟨S10000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_7 : Ref sig .tc := ⟨.hbm, 57, rfl⟩
abbrev main_v31 : Ref sig .tc := ⟨.hbm, 58, rfl⟩
abbrev main_v32 : Ref sig .tc := ⟨.hbm, 59, rfl⟩
abbrev main_c_8 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_9 : Ref sig .tc := ⟨.hbm, 67, rfl⟩
abbrev main_v39 : Ref sig .tc := ⟨.hbm, 68, rfl⟩
abbrev main_v40 : Ref sig .tc := ⟨.hbm, 69, rfl⟩
abbrev main_c_10 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call1_cst : Ref sig .tc := ⟨.hbm, 86, rfl⟩
abbrev main_call1_v0 : Ref sig .tc := ⟨.hbm, 87, rfl⟩
abbrev main_v55 : Ref sig .tc := ⟨.hbm, 88, rfl⟩
abbrev main_v56 : Ref sig .tc := ⟨.hbm, 89, rfl⟩
abbrev main_c_12 : Ref sig .tc := ⟨.hbm, 90, rfl⟩
abbrev main_v57 : Ref sig .tc := ⟨.hbm, 91, rfl⟩
abbrev main_v58 : Ref sig .tc := ⟨.hbm, 92, rfl⟩
abbrev main_c_13 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_14 : Ref sig .tc := ⟨.hbm, 99, rfl⟩
abbrev main_v64 : Ref sig .tc := ⟨.hbm, 100, rfl⟩
abbrev main_v65 : Ref sig .tc := ⟨.hbm, 101, rfl⟩
abbrev main_c_15 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_16 : Ref sig .tc := ⟨.hbm, 109, rfl⟩
abbrev main_v72 : Ref sig .tc := ⟨.hbm, 110, rfl⟩
abbrev main_v73 : Ref sig .tc := ⟨.hbm, 111, rfl⟩
abbrev main_c_17 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_18 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call2_cst : Ref sig .tc := ⟨.hbm, 128, rfl⟩
abbrev main_call2_v0 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_call3_cst : Ref sig .tc := ⟨.hbm, 135, rfl⟩
abbrev main_call3_v0 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_call4_cst : Ref sig .tc := ⟨.hbm, 146, rfl⟩
abbrev main_call4_v0 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S10000 : S_.BroadcastsInDim S10000 (![] : Fin 0 → Fin S10000.rank)
  bcast_S_S330000 : S_.BroadcastsInDim S330000 (![] : Fin 0 → Fin S330000.rank)
  bcast_S330000_S330000x1_0 : S330000.BroadcastsInDim S330000x1 (![0] : Fin 1 → Fin S330000x1.rank)
  concatenates_S10000x30_S10000x4_S10000x34_d1 : Shape.Concatenates [S10000x30, S10000x4] S10000x34 1
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  scatter_S10000_S330000x1_S330000_n_0_0_1_wf : ScatterDims.WF S10000 S330000x1 S330000 [] [0] [0] 1
  dot_S10000x34_S34x128_S10000x128_1_0_0_1_n_n_wf : DotDims.WF S10000x34 S34x128 S10000x128 [1] [0] [0] [1] [] []
  gather_S10000_S330000x1_S330000_n_0_n_n_0_1_1_wf : GatherDims.WF S10000 S330000x1 S330000 [] [0] [] [0] [] 1 ![1]
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def dot_S10000x34_S34x128_S10000x128_1_0_0_1_n_n : DotDims S10000x34 S34x128 S10000x128 where
  lhsContracting := [1]
  rhsContracting := [0]
  lhsNonContracting := [0]
  rhsNonContracting := [1]
  lhsBatch := []
  rhsBatch := []
  wf := dot_S10000x34_S34x128_S10000x128_1_0_0_1_n_n_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.R0Data.lean ====
import proofs.«419566_j52175262711930_3_alg».proof.Proof.Gen.KernelIdeal.Launch
import proofs.«419566_j52175262711930_3_alg».proof.Proof.Gen.KernelIdeal.Skeleton
import proofs.«419566_j52175262711930_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev pt0_0 : Fin cfg0.N := ⟨0, by decide⟩

def xw0 : Vec F S10112x128 .f32 := k0_pay2 (iblk0 V c 0 pt0_0) (iblk0 V c 1 pt0_0)

def accAt0 : (n : ℕ) → n < cfg0.N → Vec F S10112x128 .f32
  | 0, hn => k0_pay4 (iblk0 V c 3 ⟨0, hn⟩) (iblk0 V c 4 ⟨0, hn⟩) (iblk0 V c 5 ⟨0, hn⟩) (xw0 V c) (k0_pay3 (F := F))
  | n + 1, hn => k0_pay4 (iblk0 V c 3 ⟨n + 1, hn⟩) (iblk0 V c 4 ⟨n + 1, hn⟩) (iblk0 V c 5 ⟨n + 1, hn⟩) (xw0 V c) (accAt0 n (Nat.lt_of_succ_lt hn))

def out0_6 (t : Fin cfg0.N) : Vec F S10112x128 .f32 := k0_pay1 (accAt0 V c t.val t.isLt) (iblk0 V c 2 t)

def Φ0 (t : Fin (cfg0.N + 1)) : sProp 𝕄 :=
  iprop((match t with
      | ⟨0, _⟩ => iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
      | ⟨n + 1, h⟩ => iprop(owns (c : Thread nD τ) (Memref.whole cc0_scratch0) fullShare (xw0 V c)
          ∗ owns (c : Thread nD τ) (Memref.whole cc0_scratch1) fullShare (accAt0 V c n (Nat.lt_of_succ_lt_succ h))))
    ∗ Pipeline.scopedRestBut (Ix := Unit) (Name := ℕ) (U := UR sig nD τ) (Lvl := ℕ) (Val := Elt F) spec0 c [cc0_scratch0, cc0_scratch1]
    ∗ ∃ r, prngReg c r)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 V c t
  Φ t := Φ0 V c t
  q _ := fullShare
  owed _ := 0

end Cert.KernelIdeal.Hand

end
-- ==== Proof.R0Body.lean ====
import proofs.«419566_j52175262711930_3_alg».proof.Proof.R0Data
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (BodyObligation)

variable {F : FTy → Type} [FloatOps F]

local notation "𝕄" => MT nD τ sig Unit (Elt F) ℕ (UR sig nD τ) ℕ

section Whole

variable {κ : Kind} {sp : Space} {S : Shape} {e : EltTy} {off : Fin S.rank → ℕ} (inb : ∀ a, off a + S.size a ≤ S.size a)
include inb

theorem r0_off : off = fun _ => 0 := funext fun a => by have := inb a; omega

theorem r0_readAt_unread {m : Memref sig κ sp S e} (h : m.IsWhole) (X) :
    View.readAt (Elt F) m.view (Rect.unit off S.size inb).toLoadRect (h.unread X) = X := by
  rw [View.readAt_eq_ld, h.read_unread, View.ld_unit_zero (r0_off inb) inb]

theorem r0_read_writes_cons (v : View sig κ sp S e) (f w L) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero (r0_off inb) inb y⟩),
    View.canon_cons_unit_zero (r0_off inb) inb w L]

theorem r0_readCov (v : View sig κ sp S e) (w) :
    v.readCov [(⟨Rect.unit off S.size inb, w⟩ : View.Piece (Elt F) S e)] (Rect.unit off S.size inb).toLoadRect = w :=
  View.readCov_unit_zero v (r0_off inb) inb w

end Whole

abbrev cond0_0 (i : grid0.Coords) : Prop := (Scalar.cmpi .ne (Scalar.extui (Scalar.cmpi .eq (BitVec.ofNat 32 (i 0).val) 0#32)) 0#32) = 1#1
theorem hcond0_0 : ∀ t : Fin grid0.N, cond0_0 (grid0.coords t) ↔ t.val = 0 := by decide +kernel
abbrev cond0_1 (i : grid0.Coords) : Prop := k0_cond2 i = 1#1
theorem hcond0_1 : ∀ t : Fin grid0.N, cond0_1 (grid0.coords t) ↔ t.val % 2579 = 2578 := by decide +kernel
theorem hidle0_6 : ∀ t : Fin cfg0.N, cfg0.idle 6 (cfg0.grid.coords t) = true ↔ ¬ t.val % 2579 = 2578 :=
  (by decide +kernel : ∀ t : Fin grid0.N, idle0 6 (grid0.coords t) = true ↔ ¬ t.val % 2579 = 2578)

abbrev r0_o (c : Dev nD) {sp : Space} {S : Shape} {e : EltTy} (m : Memref sig .tc sp S e) (X : S.Idx → Elt F e) : sProp 𝕄 :=
  owns (c : Thread nD τ) m fullShare X

theorem r0_o_unread (c : Dev nD) {sp : Space} {S : Shape} {e : EltTy} {m : Memref sig .tc sp S e} (h : m.IsWhole) (X : S.Idx → Elt F e) :
    r0_o c m X = (m.view.loc (c : Thread nD τ) ↦[m.view.set]{fullShare} h.unread X : sProp 𝕄) := by
  refine BI.equiv_iff.mp ⟨?_, ?_⟩ <;> show (_ : sProp 𝕄) ⊢ _ <;> unfold r0_o owns
  · iintro ⟨%f, %hf, H⟩; obtain rfl := h.eq_unread hf; iexact H
  · iintro H; iexists _; isplitr; · ipureintro; exact h.read_unread X
    iexact H

theorem sound_kernel0_first {c E i arg1 arg2 arg3 arg4 arg5 arg6 arg7 arg8 arg9 K harg1 harg2 harg3 harg4 harg5 harg6 harg7 harg8 harg9 x0 x1 x3 x4 x5}
    (hc0 : cond0_0 i) (hc1 : ¬cond0_1 i) :
    iprop(r0_o c arg1 x0 ∗ r0_o c arg2 x1 ∗ r0_o c arg4 x3 ∗ r0_o c arg5 x4 ∗ r0_o c arg6 x5 ∗ (∃ d, r0_o c arg8 d) ∗ (∃ d, r0_o c arg9 d)
        ∗ (iprop(r0_o c arg1 x0 ∗ r0_o c arg2 x1 ∗ r0_o c arg4 x3 ∗ r0_o c arg5 x4 ∗ r0_o c arg6 x5 ∗ r0_o c arg8 (k0_pay2 x0 x1)
            ∗ r0_o c arg9 (k0_pay4 x3 x4 x5 (k0_pay2 x0 x1) (k0_pay3 (F := F)))) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  simp only [k0_part1_eq_skeleton]; unfold k0_part1_skel
  rw [r0_o_unread c harg1 x0, r0_o_unread c harg2 x1, r0_o_unread c harg4 x3, r0_o_unread c harg5 x4, r0_o_unread c harg6 x5]
  unfold r0_o owns
  iintro ⟨H1, H2, H4, H5, H6, ⟨%d8, %f8, -, H8⟩, ⟨%d9, %f9, -, H9⟩, Hk⟩
  sl_exec (disch := first | exact hc0 | exact hc1)
  sl_step
  iapply Hk
  iframe
  isplitl [H8] <;>
  · iexists _; isplitr; swap; · iassumption
    ipureintro; sl_unfold_run_names
    rw [r0_read_writes_cons]; repeat rw [r0_readAt_unread]
    repeat rw [r0_readCov]

theorem sound_kernel0_mid {c E i arg1 arg2 arg3 arg4 arg5 arg6 arg7 arg8 arg9 K harg1 harg2 harg3 harg4 harg5 harg6 harg7 harg8 harg9 x3 x4 x5 xw acc}
    (hc0 : ¬cond0_0 i) (hc1 : ¬cond0_1 i) :
    iprop(r0_o c arg4 x3 ∗ r0_o c arg5 x4 ∗ r0_o c arg6 x5 ∗ r0_o c arg8 xw ∗ r0_o c arg9 acc
        ∗ (iprop(r0_o c arg4 x3 ∗ r0_o c arg5 x4 ∗ r0_o c arg6 x5 ∗ r0_o c arg8 xw ∗ r0_o c arg9 (k0_pay4 x3 x4 x5 xw acc)) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  simp only [k0_part1_eq_skeleton]; unfold k0_part1_skel
  rw [r0_o_unread c harg4 x3, r0_o_unread c harg5 x4, r0_o_unread c harg6 x5, r0_o_unread c harg8 xw, r0_o_unread c harg9 acc]
  unfold r0_o owns
  iintro ⟨H4, H5, H6, H8, H9, Hk⟩
  sl_exec (disch := first | exact hc0 | exact hc1)
  sl_step
  iapply Hk
  iframe
  iexists _; isplitr; swap; · iassumption
  ipureintro; sl_unfold_run_names
  rw [r0_read_writes_cons]; repeat rw [r0_readAt_unread]

theorem sound_kernel0_last {c E i arg1 arg2 arg3 arg4 arg5 arg6 arg7 arg8 arg9 K harg1 harg2 harg3 harg4 harg5 harg6 harg7 harg8 harg9 x2 x3 x4 x5 xw acc}
    (hc0 : ¬cond0_0 i) (hc1 : cond0_1 i) :
    iprop(r0_o c arg3 x2 ∗ r0_o c arg4 x3 ∗ r0_o c arg5 x4 ∗ r0_o c arg6 x5 ∗ (∃ d, r0_o c arg7 d) ∗ r0_o c arg8 xw ∗ r0_o c arg9 acc
        ∗ (iprop(r0_o c arg3 x2 ∗ r0_o c arg4 x3 ∗ r0_o c arg5 x4 ∗ r0_o c arg6 x5 ∗ r0_o c arg7 (k0_pay1 (k0_pay4 x3 x4 x5 xw acc) x2)
            ∗ r0_o c arg8 xw ∗ r0_o c arg9 (k0_pay4 x3 x4 x5 xw acc)) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  simp only [k0_part1_eq_skeleton]; unfold k0_part1_skel
  rw [r0_o_unread c harg3 x2, r0_o_unread c harg4 x3, r0_o_unread c harg5 x4, r0_o_unread c harg6 x5, r0_o_unread c harg8 xw, r0_o_unread c harg9 acc]
  unfold r0_o owns
  iintro ⟨H3, H4, H5, H6, ⟨%d7, %f7, -, H7⟩, H8, H9, Hk⟩
  sl_exec (disch := first | exact hc0 | exact hc1)
  sl_step
  iapply Hk
  iframe
  isplitl [H7] <;>
  · iexists _; isplitr; swap; · iassumption
    ipureintro; sl_unfold_run_names
    rw [r0_read_writes_cons]; repeat rw [r0_readAt_unread]
    repeat rw [r0_readCov]

variable (V : (c : Dev nD) → (b : Ref sig .tc) → Buf (Elt F) ((c : Thread nD τ).loc b))

theorem r0_before (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) ∧ (∀ d, (dat0 V c).before 5 t d = iblk0 V c 5 t) := by
  refine ⟨?_, ?_, ?_, ?_, ?_, ?_⟩ <;>
    exact (dat0 V c).before_in_eq_fetched _ rfl (fun _ => rfl) (fun _ _ _ => rfl) (fun _ => rfl) t

theorem body_obligation0 (c : Dev nD) : BodyObligation (dat0 (F := F) V c) (defs₀ (F := F)) Variants.none () Set.univ := fun t => by
  rw [bigSep_W0, bigSep_W0]
  have hΦ0 : ∀ h, (dat0 V c).Φ ⟨0, h⟩ = iprop(((∃ d, r0_o c (.whole cc0_scratch0) d) ∗ ∃ d, r0_o c (.whole cc0_scratch1) d) ∗ _) :=
    fun _ => by unfold r0_o; simp only [owns_whole]; rfl
  have hΦ : ∀ n h, (dat0 V c).Φ ⟨n + 1, h⟩
      = iprop((r0_o c (.whole cc0_scratch0) (xw0 V c) ∗ r0_o c (.whole cc0_scratch1) (accAt0 V c n _)) ∗ _) := fun _ _ => rfl
  have ha : ∀ t, (dat0 V c).after 0 t = iblk0 V c 0 t ∧ (dat0 V c).after 1 t = iblk0 V c 1 t ∧ (dat0 V c).after 2 t = iblk0 V c 2 t
      ∧ (dat0 V c).after 3 t = iblk0 V c 3 t ∧ (dat0 V c).after 4 t = iblk0 V c 4 t ∧ (dat0 V c).after 5 t = iblk0 V c 5 t
      ∧ (dat0 V c).after 6 t = out0_6 V c t := fun _ => ⟨rfl, rfl, rfl, rfl, rfl, rfl, rfl⟩
  obtain ⟨n, hn⟩ := t
  by_cases hl : n % 2579 = 2578
  on_goal 1 => rw [Bool.eq_false_iff.mpr fun h => (hidle0_6 ⟨n, hn⟩).mp h hl]
  on_goal 2 => rw [(hidle0_6 ⟨n, hn⟩).mpr hl, Bool.eq_false_iff.mpr fun h => hl ((flush0_6 ⟨n, hn⟩).mp h)]
  all_goals
    rw [show (dat0 V c).owesAt () (Fin.succ ⟨n, hn⟩) = (dat0 V c).owesAt () (Fin.castSucc ⟨n, hn⟩) from rfl,
      Fin.succ_mk, Fin.castSucc_mk, hΦ]
    simp only [r0_before V c _, ha, out0_6, idle0]
    rcases n with _ | n
  · exact absurd hl (by decide)
  · rw [hΦ, accAt0]
    iintro ⟨⟨⟨H8, H9⟩, Hr⟩, Ho, ⟨%_, H0⟩, ⟨%_, H1⟩, ⟨%_, H2⟩, ⟨%_, H3⟩, ⟨%_, H4⟩, ⟨%_, H5⟩, ⟨%_, H6⟩⟩
    iapply sound_kernel0_last (fun h => n.succ_ne_zero ((hcond0_0 ⟨n + 1, hn⟩).mp h)) ((hcond0_1 ⟨n + 1, hn⟩).mpr hl)
    iframe H2 H3 H4 H5 H8 H9
    isplitl [H6]; · iexists _; iexact H6
    iintro ⟨H2, H3, H4, H5, H6, H8, H9⟩
    iframe
  · rw [hΦ0, accAt0, xw0]
    iintro ⟨⟨⟨H8, H9⟩, Hr⟩, Ho, ⟨%_, H0⟩, ⟨%_, H1⟩, ⟨%_, H2⟩, ⟨%_, H3⟩, ⟨%_, H4⟩, ⟨%_, H5⟩, H6⟩
    iapply sound_kernel0_first ((hcond0_0 ⟨0, hn⟩).mpr rfl) fun h => hl ((hcond0_1 ⟨0, hn⟩).mp h)
    iframe H0 H1 H3 H4 H5 H8 H9
    iintro ⟨H0, H1, H3, H4, H5, H8, H9⟩
    iframe
  · rw [hΦ, accAt0]
    iintro ⟨⟨⟨H8, H9⟩, Hr⟩, Ho, ⟨%_, H0⟩, ⟨%_, H1⟩, ⟨%_, H2⟩, ⟨%_, H3⟩, ⟨%_, H4⟩, ⟨%_, H5⟩, H6⟩
    iapply sound_kernel0_mid (fun h => n.succ_ne_zero ((hcond0_0 ⟨n + 1, hn⟩).mp h)) fun h => hl ((hcond0_1 ⟨n + 1, hn⟩).mp h)
    iframe H3 H4 H5 H8 H9
    iintro ⟨H3, H4, H5, H8, H9⟩
    iframe

end Cert.KernelIdeal.Hand

end
-- ==== Proof.R1Data.lean ====
import proofs.«419566_j52175262711930_3_alg».proof.Proof.Gen.KernelIdeal.Launch
import proofs.«419566_j52175262711930_3_alg».proof.Proof.Gen.KernelIdeal.Skeleton
import proofs.«419566_j52175262711930_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev pt1_0 : Fin cfg1.N := ⟨0, by decide⟩

def xw1 : Vec F S10112x128 .f32 := k1_pay2 (iblk1 V c 0 pt1_0) (iblk1 V c 1 pt1_0)

def accAt1 : (n : ℕ) → n < cfg1.N → Vec F S10112x128 .f32
  | 0, hn => k1_pay4 (iblk1 V c 3 ⟨0, hn⟩) (iblk1 V c 4 ⟨0, hn⟩) (iblk1 V c 5 ⟨0, hn⟩) (xw1 V c) (k1_pay3 (F := F))
  | n + 1, hn => k1_pay4 (iblk1 V c 3 ⟨n + 1, hn⟩) (iblk1 V c 4 ⟨n + 1, hn⟩) (iblk1 V c 5 ⟨n + 1, hn⟩) (xw1 V c) (accAt1 n (Nat.lt_of_succ_lt hn))

def out1_6 (t : Fin cfg1.N) : Vec F S10112x128 .f32 := k1_pay1 (accAt1 V c t.val t.isLt) (iblk1 V c 2 t)

def Φ1 (t : Fin (cfg1.N + 1)) : sProp 𝕄 :=
  iprop((match t with
      | ⟨0, _⟩ => iprop((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f))
      | ⟨n + 1, h⟩ => iprop(owns (c : Thread nD τ) (Memref.whole cc1_scratch0) fullShare (xw1 V c)
          ∗ owns (c : Thread nD τ) (Memref.whole cc1_scratch1) fullShare (accAt1 V c n (Nat.lt_of_succ_lt_succ h))))
    ∗ Pipeline.scopedRestBut (Ix := Unit) (Name := ℕ) (U := UR sig nD τ) (Lvl := ℕ) (Val := Elt F) spec1 c [cc1_scratch0, cc1_scratch1]
    ∗ ∃ r, prngReg c r)

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
  Φ t := Φ1 V c t
  q _ := fullShare
  owed _ := 0

end Cert.KernelIdeal.Hand

end
-- ==== Proof.R1Body.lean ====
import proofs.«419566_j52175262711930_3_alg».proof.Proof.R1Data
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (BodyObligation)

variable {F : FTy → Type} [FloatOps F]

local notation "𝕄" => MT nD τ sig Unit (Elt F) ℕ (UR sig nD τ) ℕ

section Whole

variable {κ : Kind} {sp : Space} {S : Shape} {e : EltTy} {off : Fin S.rank → ℕ} (inb : ∀ a, off a + S.size a ≤ S.size a)
include inb

theorem r1_off : off = fun _ => 0 := funext fun a => by have := inb a; omega

theorem r1_readAt_unread {m : Memref sig κ sp S e} (h : m.IsWhole) (X) :
    View.readAt (Elt F) m.view (Rect.unit off S.size inb).toLoadRect (h.unread X) = X := by
  rw [View.readAt_eq_ld, h.read_unread, View.ld_unit_zero (r1_off inb) inb]

theorem r1_read_writes_cons (v : View sig κ sp S e) (f w L) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero (r1_off inb) inb y⟩),
    View.canon_cons_unit_zero (r1_off inb) inb w L]

theorem r1_readCov (v : View sig κ sp S e) (w) :
    v.readCov [(⟨Rect.unit off S.size inb, w⟩ : View.Piece (Elt F) S e)] (Rect.unit off S.size inb).toLoadRect = w :=
  View.readCov_unit_zero v (r1_off inb) inb w

end Whole

abbrev cond1_0 (i : grid1.Coords) : Prop := (Scalar.cmpi .ne (Scalar.extui (Scalar.cmpi .eq (BitVec.ofNat 32 (i 0).val) 0#32)) 0#32) = 1#1
theorem hcond1_0 : ∀ t : Fin grid1.N, cond1_0 (grid1.coords t) ↔ t.val = 0 := by decide +kernel
abbrev cond1_1 (i : grid1.Coords) : Prop := k1_cond2 i = 1#1
theorem hcond1_1 : ∀ t : Fin grid1.N, cond1_1 (grid1.coords t) ↔ t.val % 2579 = 2578 := by decide +kernel
theorem hidle1_6 : ∀ t : Fin cfg1.N, cfg1.idle 6 (cfg1.grid.coords t) = true ↔ ¬ t.val % 2579 = 2578 :=
  (by decide +kernel : ∀ t : Fin grid1.N, idle1 6 (grid1.coords t) = true ↔ ¬ t.val % 2579 = 2578)

abbrev r1_o (c : Dev nD) {sp : Space} {S : Shape} {e : EltTy} (m : Memref sig .tc sp S e) (X : S.Idx → Elt F e) : sProp 𝕄 :=
  owns (c : Thread nD τ) m fullShare X

theorem r1_o_unread (c : Dev nD) {sp : Space} {S : Shape} {e : EltTy} {m : Memref sig .tc sp S e} (h : m.IsWhole) (X : S.Idx → Elt F e) :
    r1_o c m X = (m.view.loc (c : Thread nD τ) ↦[m.view.set]{fullShare} h.unread X : sProp 𝕄) := by
  refine BI.equiv_iff.mp ⟨?_, ?_⟩ <;> show (_ : sProp 𝕄) ⊢ _ <;> unfold r1_o owns
  · iintro ⟨%f, %hf, H⟩; obtain rfl := h.eq_unread hf; iexact H
  · iintro H; iexists _; isplitr; · ipureintro; exact h.read_unread X
    iexact H

theorem sound_kernel1_first {c E i arg1 arg2 arg3 arg4 arg5 arg6 arg7 arg8 arg9 K harg1 harg2 harg3 harg4 harg5 harg6 harg7 harg8 harg9 x0 x1 x3 x4 x5}
    (hc0 : cond1_0 i) (hc1 : ¬cond1_1 i) :
    iprop(r1_o c arg1 x0 ∗ r1_o c arg2 x1 ∗ r1_o c arg4 x3 ∗ r1_o c arg5 x4 ∗ r1_o c arg6 x5 ∗ (∃ d, r1_o c arg8 d) ∗ (∃ d, r1_o c arg9 d)
        ∗ (iprop(r1_o c arg1 x0 ∗ r1_o c arg2 x1 ∗ r1_o c arg4 x3 ∗ r1_o c arg5 x4 ∗ r1_o c arg6 x5 ∗ r1_o c arg8 (k1_pay2 x0 x1)
            ∗ r1_o c arg9 (k1_pay4 x3 x4 x5 (k1_pay2 x0 x1) (k1_pay3 (F := F)))) -∗ K ⟨⟩))
      ⊢ wp frame (wpE (defs₀ (F := F)) Variants.none c none) E
          (cc1__gcn_kernel i arg1 harg1 arg2 harg2 arg3 harg3 arg4 harg4 arg5 harg5 arg6 harg6 arg7 harg7 arg8 harg8 arg9 harg9) K := by
  simp only [cc1__gcn_kernel_eq_skeleton]; unfold cc1__gcn_kernel_skel
  simp only [k1_part1_eq_skeleton]; unfold k1_part1_skel
  rw [r1_o_unread c harg1 x0, r1_o_unread c harg2 x1, r1_o_unread c harg4 x3, r1_o_unread c harg5 x4, r1_o_unread c harg6 x5]
  unfold r1_o owns
  iintro ⟨H1, H2, H4, H5, H6, ⟨%d8, %f8, -, H8⟩, ⟨%d9, %f9, -, H9⟩, Hk⟩
  sl_exec (disch := first | exact hc0 | exact hc1)
  sl_step
  iapply Hk
  iframe
  isplitl [H8] <;>
  · iexists _; isplitr; swap; · iassumption
    ipureintro; sl_unfold_run_names
    rw [r1_read_writes_cons]; repeat rw [r1_readAt_unread]
    repeat rw [r1_readCov]

theorem sound_kernel1_mid {c E i arg1 arg2 arg3 arg4 arg5 arg6 arg7 arg8 arg9 K harg1 harg2 harg3 harg4 harg5 harg6 harg7 harg8 harg9 x3 x4 x5 xw acc}
    (hc0 : ¬cond1_0 i) (hc1 : ¬cond1_1 i) :
    iprop(r1_o c arg4 x3 ∗ r1_o c arg5 x4 ∗ r1_o c arg6 x5 ∗ r1_o c arg8 xw ∗ r1_o c arg9 acc
        ∗ (iprop(r1_o c arg4 x3 ∗ r1_o c arg5 x4 ∗ r1_o c arg6 x5 ∗ r1_o c arg8 xw ∗ r1_o c arg9 (k1_pay4 x3 x4 x5 xw acc)) -∗ K ⟨⟩))
      ⊢ wp frame (wpE (defs₀ (F := F)) Variants.none c none) E
          (cc1__gcn_kernel i arg1 harg1 arg2 harg2 arg3 harg3 arg4 harg4 arg5 harg5 arg6 harg6 arg7 harg7 arg8 harg8 arg9 harg9) K := by
  simp only [cc1__gcn_kernel_eq_skeleton]; unfold cc1__gcn_kernel_skel
  simp only [k1_part1_eq_skeleton]; unfold k1_part1_skel
  rw [r1_o_unread c harg4 x3, r1_o_unread c harg5 x4, r1_o_unread c harg6 x5, r1_o_unread c harg8 xw, r1_o_unread c harg9 acc]
  unfold r1_o owns
  iintro ⟨H4, H5, H6, H8, H9, Hk⟩
  sl_exec (disch := first | exact hc0 | exact hc1)
  sl_step
  iapply Hk
  iframe
  iexists _; isplitr; swap; · iassumption
  ipureintro; sl_unfold_run_names
  rw [r1_read_writes_cons]; repeat rw [r1_readAt_unread]

theorem sound_kernel1_last {c E i arg1 arg2 arg3 arg4 arg5 arg6 arg7 arg8 arg9 K harg1 harg2 harg3 harg4 harg5 harg6 harg7 harg8 harg9 x2 x3 x4 x5 xw acc}
    (hc0 : ¬cond1_0 i) (hc1 : cond1_1 i) :
    iprop(r1_o c arg3 x2 ∗ r1_o c arg4 x3 ∗ r1_o c arg5 x4 ∗ r1_o c arg6 x5 ∗ (∃ d, r1_o c arg7 d) ∗ r1_o c arg8 xw ∗ r1_o c arg9 acc
        ∗ (iprop(r1_o c arg3 x2 ∗ r1_o c arg4 x3 ∗ r1_o c arg5 x4 ∗ r1_o c arg6 x5 ∗ r1_o c arg7 (k1_pay1 (k1_pay4 x3 x4 x5 xw acc) x2)
            ∗ r1_o c arg8 xw ∗ r1_o c arg9 (k1_pay4 x3 x4 x5 xw acc)) -∗ K ⟨⟩))
      ⊢ wp frame (wpE (defs₀ (F := F)) Variants.none c none) E
          (cc1__gcn_kernel i arg1 harg1 arg2 harg2 arg3 harg3 arg4 harg4 arg5 harg5 arg6 harg6 arg7 harg7 arg8 harg8 arg9 harg9) K := by
  simp only [cc1__gcn_kernel_eq_skeleton]; unfold cc1__gcn_kernel_skel
  simp only [k1_part1_eq_skeleton]; unfold k1_part1_skel
  rw [r1_o_unread c harg3 x2, r1_o_unread c harg4 x3, r1_o_unread c harg5 x4, r1_o_unread c harg6 x5, r1_o_unread c harg8 xw, r1_o_unread c harg9 acc]
  unfold r1_o owns
  iintro ⟨H3, H4, H5, H6, ⟨%d7, %f7, -, H7⟩, H8, H9, Hk⟩
  sl_exec (disch := first | exact hc0 | exact hc1)
  sl_step
  iapply Hk
  iframe
  isplitl [H7] <;>
  · iexists _; isplitr; swap; · iassumption
    ipureintro; sl_unfold_run_names
    rw [r1_read_writes_cons]; repeat rw [r1_readAt_unread]
    repeat rw [r1_readCov]

variable (V : (c : Dev nD) → (b : Ref sig .tc) → Buf (Elt F) ((c : Thread nD τ).loc b))

theorem r1_before (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t) := by
  refine ⟨?_, ?_, ?_, ?_, ?_, ?_⟩ <;>
    exact (dat1 V c).before_in_eq_fetched _ rfl (fun _ => rfl) (fun _ _ _ => rfl) (fun _ => rfl) t

theorem body_obligation1 (c : Dev nD) : BodyObligation (dat1 (F := F) V c) (defs₀ (F := F)) Variants.none () Set.univ := fun t => by
  rw [bigSep_W1, bigSep_W1]
  have hΦ0 : ∀ h, (dat1 V c).Φ ⟨0, h⟩ = iprop(((∃ d, r1_o c (.whole cc1_scratch0) d) ∗ ∃ d, r1_o c (.whole cc1_scratch1) d) ∗ _) :=
    fun _ => by unfold r1_o; simp only [owns_whole]; rfl
  have hΦ : ∀ n h, (dat1 V c).Φ ⟨n + 1, h⟩
      = iprop((r1_o c (.whole cc1_scratch0) (xw1 V c) ∗ r1_o c (.whole cc1_scratch1) (accAt1 V c n _)) ∗ _) := fun _ _ => rfl
  have ha : ∀ t, (dat1 V c).after 0 t = iblk1 V c 0 t ∧ (dat1 V c).after 1 t = iblk1 V c 1 t ∧ (dat1 V c).after 2 t = iblk1 V c 2 t
      ∧ (dat1 V c).after 3 t = iblk1 V c 3 t ∧ (dat1 V c).after 4 t = iblk1 V c 4 t ∧ (dat1 V c).after 5 t = iblk1 V c 5 t
      ∧ (dat1 V c).after 6 t = out1_6 V c t := fun _ => ⟨rfl, rfl, rfl, rfl, rfl, rfl, rfl⟩
  obtain ⟨n, hn⟩ := t
  by_cases hl : n % 2579 = 2578
  on_goal 1 => rw [Bool.eq_false_iff.mpr fun h => (hidle1_6 ⟨n, hn⟩).mp h hl]
  on_goal 2 => rw [(hidle1_6 ⟨n, hn⟩).mpr hl, Bool.eq_false_iff.mpr fun h => hl ((flush1_6 ⟨n, hn⟩).mp h)]
  all_goals
    rw [show (dat1 V c).owesAt () (Fin.succ ⟨n, hn⟩) = (dat1 V c).owesAt () (Fin.castSucc ⟨n, hn⟩) from rfl,
      Fin.succ_mk, Fin.castSucc_mk, hΦ]
    simp only [r1_before V c _, ha, out1_6, idle1]
    rcases n with _ | n
  · exact absurd hl (by decide)
  · rw [hΦ, accAt1]
    iintro ⟨⟨⟨H8, H9⟩, Hr⟩, Ho, ⟨%_, H0⟩, ⟨%_, H1⟩, ⟨%_, H2⟩, ⟨%_, H3⟩, ⟨%_, H4⟩, ⟨%_, H5⟩, ⟨%_, H6⟩⟩
    iapply sound_kernel1_last (fun h => n.succ_ne_zero ((hcond1_0 ⟨n + 1, hn⟩).mp h)) ((hcond1_1 ⟨n + 1, hn⟩).mpr hl)
    iframe H2 H3 H4 H5 H8 H9
    isplitl [H6]; · iexists _; iexact H6
    iintro ⟨H2, H3, H4, H5, H6, H8, H9⟩
    iframe
  · rw [hΦ0, accAt1, xw1]
    iintro ⟨⟨⟨H8, H9⟩, Hr⟩, Ho, ⟨%_, H0⟩, ⟨%_, H1⟩, ⟨%_, H2⟩, ⟨%_, H3⟩, ⟨%_, H4⟩, ⟨%_, H5⟩, H6⟩
    iapply sound_kernel1_first ((hcond1_0 ⟨0, hn⟩).mpr rfl) fun h => hl ((hcond1_1 ⟨0, hn⟩).mp h)
    iframe H0 H1 H3 H4 H5 H8 H9
    iintro ⟨H0, H1, H3, H4, H5, H8, H9⟩
    iframe
  · rw [hΦ, accAt1]
    iintro ⟨⟨⟨H8, H9⟩, Hr⟩, Ho, ⟨%_, H0⟩, ⟨%_, H1⟩, ⟨%_, H2⟩, ⟨%_, H3⟩, ⟨%_, H4⟩, ⟨%_, H5⟩, H6⟩
    iapply sound_kernel1_mid (fun h => n.succ_ne_zero ((hcond1_0 ⟨n + 1, hn⟩).mp h)) fun h => hl ((hcond1_1 ⟨n + 1, hn⟩).mp h)
    iframe H3 H4 H5 H8 H9
    iintro ⟨H3, H4, H5, H8, H9⟩
    iframe

end Cert.KernelIdeal.Hand

end
-- ==== Proof.R2Data.lean ====
import proofs.«419566_j52175262711930_3_alg».proof.Proof.Gen.KernelIdeal.Launch
import proofs.«419566_j52175262711930_3_alg».proof.Proof.Gen.KernelIdeal.Skeleton
import proofs.«419566_j52175262711930_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL.RA
open Idealize.ShloMosaic.Pipeline (Dat)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_o : Rect S128x1 := Rect.unit (s := S128x1) ![0, 0] S128x1.size inb_S128x1_S128x1_0_0

def out2_9 (x0 x1 : Vec F S128x128 .f32) (x2 : Vec F S1x128 .f32) (x3 : Vec F S128x1 .f32) (x4 : Vec F S1x1 .f32) : Vec F S128x1 .f32 :=
  View.canon [⟨r2_o, k2_pay3 x0 x1 x2 x3 x4⟩]

def out2_10 (x0 x5 : Vec F S128x128 .f32) (x6 : Vec F S1x128 .f32) (x7 : Vec F S128x1 .f32) (x8 : Vec F S1x1 .f32) : Vec F S128x1 .f32 :=
  View.canon [⟨r2_o, k2_pay1 (k2_pay4 x0 x5 x6 x7) x8⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t)
    | ⟨10, _⟩ => out2_10 (iblk2 V c 0 t) (iblk2 V c 5 t) (iblk2 V c 6 t) (iblk2 V c 7 t) (iblk2 V c 8 t)
  Φ _ := Pipeline.ΦA spec2 c
  q _ := fullShare
  owed _ := 0
end Cert.KernelIdeal.Hand

end
-- ==== Proof.R2Body.lean ====
import proofs.«419566_j52175262711930_3_alg».proof.Proof.R2Data

namespace Cert.KernelIdeal.Hand

open Cert.KernelIdeal.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

theorem r2_readAt_unit_eq_read {sg : RefSig} {κ : Kind} {sp : Space} {s : Shape} {e : EltTy} {Val : EltTy → Type}
    (v : View sg κ sp s e) {off : Fin s.rank → Nat} (inb : ∀ a, off a + s.size a ≤ s.size a) (f : v.ty.Contents Val) :
    v.readAt Val (Rect.unit off s.size inb).toLoadRect f = v.read Val f := by
  obtain rfl : off = fun _ => 0 := funext fun a => by have := inb a; omega
  exact funext fun x => congrArg (v.read Val f) (LoadRect.idx_whole x)

theorem before2 (c : Dev nD) (t : Fin cfg2.N) (w : Fin 11) (hw : (cfg2.win w).isOut = false) :
    ∀ d, (dat2 V c).before w t d = (dat2 V c).fetched w t d := by
  fin_cases w <;> first
    | exact (dat2 V c).before_in_eq_fetched _ hw (fun _ => rfl) (fun _ _ _ => rfl) (fun _ => rfl) t
    | exact absurd hw (by decide)

theorem sound_kernel2 {c : Dev nD} {E : Set ℕ} {i : grid2.Coords}
    {a1 a2 a6 : Memref sig .tc .vmem S128x128 .f32} {a3 a7 : Memref sig .tc .vmem S1x128 .f32}
    {a4 a8 a10 a11 : Memref sig .tc .vmem S128x1 .f32} {a5 a9 : Memref sig .tc .vmem S1x1 .f32}
    {h1 : a1.IsWhole} {h2 : a2.IsWhole} {h3 : a3.IsWhole} {h4 : a4.IsWhole} {h5 : a5.IsWhole} {h6 : a6.IsWhole}
    {h7 : a7.IsWhole} {h8 : a8.IsWhole} {h9 : a9.IsWhole} {h10 : a10.IsWhole} {h11 : a11.IsWhole}
    {x0 x1 x5 : Vec F S128x128 .f32} {x2 x6 : Vec F S1x128 .f32} {x3 x7 d9 d10 : Vec F S128x1 .f32} {x4 x8 : Vec F S1x1 .f32}
    {K : PUnit → sProp (MT nD τ sig Unit (Elt F) ℕ (UR sig nD τ) ℕ)} :
    let P (y9 y10 : Vec F S128x1 .f32) := iprop(ownsTc c a1 fullShare x0 ∗ ownsTc c a2 fullShare x1 ∗ ownsTc c a3 fullShare x2
      ∗ ownsTc c a4 fullShare x3 ∗ ownsTc c a5 fullShare x4 ∗ ownsTc c a6 fullShare x5 ∗ ownsTc c a7 fullShare x6
      ∗ ownsTc c a8 fullShare x7 ∗ ownsTc c a9 fullShare x8 ∗ ownsTc c a10 fullShare y9 ∗ ownsTc c a11 fullShare y10)
    iprop(P d9 d10 ∗ (P (out2_9 x0 x1 x2 x3 x4) (out2_10 x0 x5 x6 x7 x8) -∗ K ⟨⟩))
      ⊢ wp frame (wpE (defs₀ (F := F)) Variants.none c none) E
          (cc2__qhead_kernel i a1 h1 a2 h2 a3 h3 a4 h4 a5 h5 a6 h6 a7 h7 a8 h8 a9 h9 a10 h10 a11 h11) K := by
  simp only [cc2__qhead_kernel_eq_skeleton]; unfold cc2__qhead_kernel_skel
  simp only [k2_part1_eq_skeleton]; unfold k2_part1_skel
  unfold ownsTc owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, -, H9⟩, ⟨%f10, -, H10⟩⟩, Hk⟩
  subst hf0 hf1 hf2 hf3 hf4 hf5 hf6 hf7 hf8
  sl_exec
  sl_step
  iapply Hk
  isplitl [H0]; rotate_left
  isplitl [H1]; rotate_left
  isplitl [H2]; rotate_left
  isplitl [H3]; rotate_left
  isplitl [H4]; rotate_left
  isplitl [H5]; rotate_left
  isplitl [H6]; rotate_left
  isplitl [H7]; rotate_left
  isplitl [H8]; rotate_left
  isplitl [H9]
  all_goals
    iexists _; isplitr; swap; · iassumption
    ipureintro
    first
      | refine (View.read_writes_eq_canon _ _ _ (View.cover_of_tiled _ S128x1.size (by rfl))).trans ?_
        simp only [out2_9, out2_10]
        repeat rw [r2_readAt_unit_eq_read]
      | rfl

theorem body_obligation2 (c : Dev nD) : BodyObligation (dat2 (F := F) V c) (defs₀ (F := F)) Variants.none () Set.univ := fun t => by
  rw [bigSep_W2, bigSep_W2]
  simp (disch := exact rfl) only [before2 V c t]
  dsimp only [Dat.owesAt, Dat.bound, dat2]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩⟩
  iapply sound_kernel2
  dsimp only
  isplitr [HΦ Ho]
  · iframe
  iintro H
  iframe HΦ Ho
  iexact H

end Cert.KernelIdeal.Hand
-- ==== Proof.Run.lean ====
import proofs.«419566_j52175262711930_3_alg».proof.Proof.R0Body
import proofs.«419566_j52175262711930_3_alg».proof.Proof.R1Body
import proofs.«419566_j52175262711930_3_alg».proof.Proof.R2Body
import proofs.«419566_j52175262711930_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

def W4 (c : Dev nD) : Valuation τ sig (Elt F) :=
  withArrays spec0 c (W3 m ρ c) fun w => (dat0 (V3 m ρ) c).arrAt w cfg0.N
theorem W4_arr (c : Dev nD) (w : Fin cfg0.W) :
    W4 m ρ c (arrRef spec0 w) = (dat0 (V3 m ρ) c).arrAt w cfg0.N :=
  withArrays_arr spec0 launch0.win.arr_inj c _ _ w
abbrev V4 : (c : Dev nD) → (b : Ref sig .tc) → Buf (Elt F) ((c : Thread nD τ).loc b) := fun c b => W4 m ρ c b

def W5 (c : Dev nD) : Valuation τ sig (Elt F) :=
  withArrays spec1 c (W4 m ρ c) fun w => (dat1 (V4 m ρ) c).arrAt w cfg1.N
theorem W5_arr (c : Dev nD) (w : Fin cfg1.W) :
    W5 m ρ c (arrRef spec1 w) = (dat1 (V4 m ρ) c).arrAt w cfg1.N :=
  withArrays_arr spec1 launch1.win.arr_inj c _ _ w

abbrev W6 := fun c => StableHlo.after hostOps2 (W5 m ρ c)
abbrev V6 : (c : Dev nD) → (b : Ref sig .tc) → Buf (Elt F) ((c : Thread nD τ).loc b) := fun c b => W6 m ρ c b

def W7 (c : Dev nD) : Valuation τ sig (Elt F) :=
  withArrays spec2 c (W6 m ρ c) fun w => (dat2 (V6 m ρ) c).arrAt w cfg2.N
theorem W7_arr (c : Dev nD) (w : Fin cfg2.W) :
    W7 m ρ c (arrRef spec2 w) = (dat2 (V6 m ρ) c).arrAt w cfg2.N :=
  withArrays_arr spec2 launch2.win.arr_inj c _ _ w

abbrev W8 : Dev nD → Valuation τ sig (Elt F) := fun c => StableHlo.after hostOps3 (W7 m ρ c)

def pdats : (p : Fin 3) → (c : Dev nD) → Dat τ (Elt F) Unit ℕ (UR sig nD τ) ℕ (pin (pcfgs (F := F)) adm p) c
  | ⟨0, _⟩ => fun c => dat0 (V3 m ρ) c
  | ⟨1, _⟩ => fun c => dat1 (V4 m ρ) c
  | ⟨2, _⟩ => fun c => dat2 (V6 m ρ) c
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev St (W : Dev nD → Valuation τ sig (Elt F)) (c : Dev nD) : sProp 𝕄 :=
  iprop(StableHlo.held (c : Thread nD τ) (ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ .none L lv :=
  HostSeg.ofOps _ _ _ _ _ (ucRefs τ sig) ops
    (fun op h => sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ ucRefs τ sig :=
  Finset.mem_filter.mpr ⟨StableHlo.devRef_mem_tcRefs b, h⟩

theorem inG {X P S T Z : sProp 𝕄} (h : S = iprop(T ∗ Z)) : iprop(X ∗ P ∗ S) ⊢ iprop(T ∗ Z ∗ X) := by
  subst h
  iintro ⟨Hx, -, Ht, Hz⟩
  isplitl [Ht]; · iexact Ht
  isplitl [Hz]; · iexact Hz
  iexact Hx

theorem outG {c : Dev nD} {X S Z : sProp 𝕄} {b₁ b₂ : Ref sig .tc} {f₁ f₂}
    (h : S = iprop(((∃ f, ((c : Thread nD τ).loc b₁) ↦{fullShare} f) ∗ ∃ f, ((c : Thread nD τ).loc b₂) ↦{fullShare} f) ∗ Z)) :
    iprop((owns (c : Thread nD τ) (Memref.whole b₁) fullShare f₁ ∗ owns (c : Thread nD τ) (Memref.whole b₂) fullShare f₂) ∗ Z ∗ X)
      ⊢ iprop(X ∗ emp ∗ S) := by
  subst h
  rw [owns_whole, owns_whole]
  iintro ⟨⟨H0, H1⟩, Hz, Hx⟩
  isplitl [Hx]; · iexact Hx
  isplitr; · iempintro
  isplitl [H0 H1]
  · isplitl [H0]; · iexists _; iexact H0
    iexists _; iexact H1
  iexact Hz

theorem entryG {c : Dev nD} {W : Dev nD → Valuation τ sig (Elt F)} {A Z P S : sProp 𝕄} {B : Set (SemLoc sig × Unit)}
    (h : (unscopedBufs c (fun b => W c b) : sProp 𝕄) ⊢ iprop(A ∗ Z)) (hP : iprop(emp) ⊢ P) (hB : ∀ x, x ∈ B) :
    iprop(St W c ∗ S) ⊢ |={Set.univ}=> iprop(A ∗ P ∗ owesWithin c 0 B ∗ (∃ r, prngReg c r) ∗ Z) := by
  rw [unscopedBufs_held] at h
  iintro ⟨⟨Hh, Hp, HO⟩, -⟩
  ihave H := h $$ Hh
  icases H with ⟨Ha, Hz⟩
  imodintro
  isplitl [Ha]; · iexact Ha
  isplitr; · iapply hP; iempintro
  isplitl [HO]
  · icases HO with ⟨%W', HO⟩; iexists W'; isplitr; · ipureintro; exact fun x _ => hB x
    iexact HO
  isplitl [Hp]; · iexact Hp
  iexact Hz

theorem exitG {c : Dev nD} {W : Dev nD → Valuation τ sig (Elt F)} {A Z : sProp 𝕄} {B : Set (SemLoc sig × Unit)}
    (h : iprop(A ∗ Z) ⊢ (unscopedBufs c (fun b => W c b) : sProp 𝕄)) :
    iprop(A ∗ owesWithin c 0 B ∗ (∃ r, prngReg c r) ∗ Z) ⊢ |={Set.univ}=> St W c := by
  rw [unscopedBufs_held] at h
  iintro ⟨Ha, HO, Hp, Hz⟩
  imodintro
  isplitl [Ha Hz]
  · iapply h; isplitl [Ha] <;> iassumption
  isplitl [Hp]; · iexact Hp
  icases HO with ⟨%W', -, HO⟩; iexists W'; iexact HO

theorem wa_rest {gr n : ℕ} (win : Fin n → WinSpec sig gr) (c : Dev nD) (V : Valuation τ sig (Elt F)) (A) (b : Ref sig .tc)
    (hb : b ∉ Finset.univ.image (arrRef win)) : withArrays win c V A b = V b :=
  withArrays_of_ne win c V A b fun w e => hb (Finset.mem_image.mpr ⟨w, Finset.mem_univ _, e⟩)

abbrev RS := RegionSeg (pcfgs (F := F)) adm (pdats m ρ) () defs₀ .none L lv

def reg0 : RS m ρ 0 where
  win := launch0.win.to₀
  block_pos := launch0.block_pos
  stage_whole := launch0.stage_whole
  K := PEmpty
  osem k := k.elim
  ho := OwnSemFacts.none _
  hbody c := (body_obligation0 (V3 m ρ) c).loose
  hwaits := hwaits_of_owed_zero _ _ _ _ L lv 0 fun _ _ => rfl
  pre := St (W3 m ρ)
  post := St (W4 m ρ)
  X c := iprop(∃ r, prngReg c r)
  Y c := iprop(∃ r, prngReg c r)
  Z c := unscopedRest spec0 c (V3 m ρ c)
  hentry c := entryG (arrays_of_unscopedBufs (p := 0) (pcfgs (F := F)) adm (pdats m ρ) launch0.win launch0.arr_whole c
    ((pdats m ρ 0 c).share_full fun _ => rfl) (V3 m ρ c) fun _ => rfl) .rfl fun _ => Or.inl trivial
  hin c := inG (scopedRest0_split c)
  hout c := by rw [ownSems0_none]; exact outG (scopedRest0_split c)
  hexit c := exitG (unscopedBufs_of_arrays (p := 0) (pcfgs (F := F)) adm launch0.win launch0.arr_whole c (pdats m ρ)
    ((pdats m ρ 0 c).share_full fun _ => rfl) (V3 m ρ c) (V4 m ρ c) _ (fun w => (W4_arr m ρ c w).symm) (wa_rest spec0 c _ _))

def reg1 : RS m ρ 1 where
  win := launch1.win.to₀
  block_pos := launch1.block_pos
  stage_whole := launch1.stage_whole
  K := PEmpty
  osem k := k.elim
  ho := OwnSemFacts.none _
  hbody c := (body_obligation1 (V4 m ρ) c).loose
  hwaits := hwaits_of_owed_zero _ _ _ _ L lv 1 fun _ _ => rfl
  pre := St (W4 m ρ)
  post := St (W5 m ρ)
  X c := iprop(∃ r, prngReg c r)
  Y c := iprop(∃ r, prngReg c r)
  Z c := unscopedRest spec1 c (V4 m ρ c)
  hentry c := entryG (arrays_of_unscopedBufs (p := 1) (pcfgs (F := F)) adm (pdats m ρ) launch1.win launch1.arr_whole c
    ((pdats m ρ 1 c).share_full fun _ => rfl) (V4 m ρ c) fun _ => rfl) .rfl fun _ => Or.inl trivial
  hin c := inG (scopedRest1_split c)
  hout c := by rw [ownSems0_none]; exact outG (scopedRest1_split c)
  hexit c := exitG (unscopedBufs_of_arrays (p := 1) (pcfgs (F := F)) adm launch1.win launch1.arr_whole c (pdats m ρ)
    ((pdats m ρ 1 c).share_full fun _ => rfl) (V4 m ρ c) (fun b => W5 m ρ c b) _ (fun w => (W5_arr m ρ c w).symm) (wa_rest spec1 c _ _))

def reg2 : RS m ρ 2 where
  win := launch2.win.to₀
  block_pos := launch2.block_pos
  stage_whole := launch2.stage_whole
  K := PEmpty
  osem k := k.elim
  ho := OwnSemFacts.none _
  hbody c := (body_obligation2 (V6 m ρ) c).loose
  hwaits := hwaits_of_owed_zero _ _ _ _ L lv 2 fun _ _ => rfl
  pre := St (W6 m ρ)
  post := St (W7 m ρ)
  X c := iprop(∃ r, prngReg c r)
  Y c := iprop(∃ r, prngReg c r)
  Z c := unscopedRest spec2 c (V6 m ρ c)
  hentry c := entryG (arrays_of_unscopedBufs (p := 2) (pcfgs (F := F)) adm (pdats m ρ) launch2.win launch2.arr_whole c
    ((pdats m ρ 2 c).share_full fun _ => rfl) (V6 m ρ c) fun _ => rfl) .rfl fun _ => Or.inl trivial
  hin c := by
    rw [show (pdats m ρ 2 c).Φ 0 = ΦA spec2 c from rfl]; unfold ΦA
    iintro ⟨Hp, -, Hr⟩
    isplitl [Hr]; · iexact Hr
    iexact Hp
  hout c := by
    rw [ownSems0_none, show (pdats m ρ 2 c).Φ (Fin.last _) = ΦA spec2 c from rfl]; unfold ΦA
    iintro ⟨Hr, Hp⟩
    isplitl [Hp]; · iexact Hp
    isplitr; · iempintro
    iexact Hr
  hexit c := exitG (unscopedBufs_of_arrays (p := 2) (pcfgs (F := F)) adm launch2.win launch2.arr_whole c (pdats m ρ)
    ((pdats m ρ 2 c).share_full fun _ => rfl) (V6 m ρ c) (fun b => W7 m ρ c b) _ (fun w => (W7_arr m ρ c w).symm) (wa_rest spec2 c _ _))

abbrev segs : List (Seg (pcfgs (F := F)) adm (pdats m ρ) () defs₀ .none L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)),
    .region (reg2 m ρ),
    .host (hseg hostOps3 hostOps3_sub hostOps3_fresh (W7 m ρ)) ]

theorem run : θ_run defs (onTc (τ := τ) (main (F := F))) ⟨m, fun _ => 0, ρ⟩ (fun r => ∀ c : Dev nD,
      ∀ b ∈ ucRefs τ sig, r.2.mem (((c : Thread nD τ)).1, b) = W8 m ρ c b) :=
  θ_run_regions_kit (pcfgs (F := F)) adm (pdats m ρ) () cellOf_inj emb₁ defs₀ .none L lv m ρ main (segs m ρ)
    (fun c Q => by
      rewrite [main_chain c, Seg.run_eq_chain,
        show (segs m ρ).map Seg.prog = [
          StableHlo.seq hostOps0,
          StableHlo.seq hostOps0_1,
          StableHlo.seq hostOps0_2,
          Prog.lift (.customCall (entry 0) ()),
          Prog.lift (.customCall (entry 1) ()),
          StableHlo.seq hostOps2,
          Prog.lift (.customCall (entry 2) ()),
          StableHlo.seq hostOps3 ] from rfl]
      exact .rfl)
    (by simp only [segs, Seg.pipes_host, Seg.pipes_region, Seg.pipes_nil]; decide)
    (O₀ := 0) (hL := fun _ _ => rfl) (G := fun _ => iprop(emp))
    (u₀ := initOf (cells cfgs cellOf_inj) (launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := St (W0 m ρ))
    (Tₙ := fun c => iprop(StableHlo.held (c : Thread nD τ) (ucRefs τ sig) (W8 m ρ c) ∗ ∃ r, prngReg c r))
    (hch := ⟨fun _ => .rfl, fun _ => .rfl, fun _ => .rfl, fun _ => .rfl, fun _ => .rfl, fun _ => .rfl, fun _ => .rfl, fun _ => .rfl,
      fun _ => sep_assoc'⟩)
    (hinit := by
      refine initEach L lv fun c => ?_
      rw [show unscopedBufs c (fun b => m ((c : Thread nD τ).loc b)) = _ from unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all _ (fun b => (((c : Thread nD τ)).1, b)) _ s')
      isplitl [Hh] <;> iassumption)
    (hQ := fun _ h => h)

abbrev mainArgs : List (Ref sig .tc) := [main_arg0, main_arg1, main_arg2, main_arg3, main_arg4, main_arg5, main_arg6, main_arg7, main_arg8, main_arg9, main_arg10, main_arg11, main_arg12, main_arg13, main_arg14]

section Keep
variable (c : Dev nD) (b : Ref sig .tc)

theorem W2_of (r : Ref sig .tc) (h : r ∉ hostOps0_1_W) : W2 m ρ c r = W1 m ρ c r :=
  StableHlo.after_of_writes_sub hostOps0_1 _ hostOps0_1_writes h
theorem W3_of (r : Ref sig .tc) (h : r ∉ hostOps0_2_W) : W3 m ρ c r = W2 m ρ c r :=
  StableHlo.after_of_writes_sub hostOps0_2 _ hostOps0_2_writes h
theorem W6_of (r : Ref sig .tc) (h : r ∉ hostOps2_W) : W6 m ρ c r = W5 m ρ c r :=
  StableHlo.after_of_writes_sub hostOps2 _ hostOps2_writes h

theorem W4_keep (hb : b ≠ main_v51) : W4 m ρ c b = W3 m ρ c b := by
  by_cases h : ∃ w, arrRef spec0 w = b
  · obtain ⟨w, rfl⟩ := h
    exact (W4_arr m ρ c w).trans ((dat0 (V3 m ρ) c).arrAt_in w (by revert w; decide) _)
  · exact withArrays_of_ne spec0 c _ _ b fun w e => h ⟨w, e⟩
theorem W5_keep (hb : b ≠ main_v52) : W5 m ρ c b = W4 m ρ c b := by
  by_cases h : ∃ w, arrRef spec1 w = b
  · obtain ⟨w, rfl⟩ := h
    exact (W5_arr m ρ c w).trans ((dat1 (V4 m ρ) c).arrAt_in w (by revert w; decide) _)
  · exact withArrays_of_ne spec1 c _ _ b fun w e => h ⟨w, e⟩
theorem W7_keep (hb : b ≠ main_v57_0 ∧ b ≠ main_v57_1) : W7 m ρ c b = W6 m ρ c b := by
  by_cases h : ∃ w, arrRef spec2 w = b
  · obtain ⟨w, rfl⟩ := h
    exact (W7_arr m ρ c w).trans ((dat2 (V6 m ρ) c).arrAt_in w (by revert w; decide) _)
  · exact withArrays_of_ne spec2 c _ _ b fun w e => h ⟨w, e⟩

variable (hb : b ∈ mainArgs)
include hb

theorem W2_arg : W2 m ρ c b = m ((c : Thread nD τ).loc b) :=
  (W2_of m ρ c b (by revert b; decide)).trans
    (StableHlo.after_of_writes_sub hostOps0 _ hostOps0_writes (by revert b; decide))
theorem W3_arg : W3 m ρ c b = m ((c : Thread nD τ).loc b) :=
  (W3_of m ρ c b (by revert b; decide)).trans (W2_arg m ρ c b hb)
theorem W4_arg : W4 m ρ c b = m ((c : Thread nD τ).loc b) :=
  (W4_keep m ρ c b (by revert b; decide)).trans (W3_arg m ρ c b hb)
theorem W5_arg : W5 m ρ c b = m ((c : Thread nD τ).loc b) :=
  (W5_keep m ρ c b (by revert b; decide)).trans (W4_arg m ρ c b hb)
theorem W6_arg : W6 m ρ c b = m ((c : Thread nD τ).loc b) :=
  (W6_of m ρ c b (by revert b; decide)).trans (W5_arg m ρ c b hb)
theorem W8_arg : W8 m ρ c b = m ((c : Thread nD τ).loc b) :=
  (StableHlo.after_of_writes_sub hostOps3 _ hostOps3_writes (by revert b; decide)).trans
    ((W7_keep m ρ c b (by revert b; decide)).trans (W6_arg m ρ c b hb))

end Keep

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    have k : ∀ b ∈ mainArgs, r.2.mem ((c.tc : Thread nD τ).loc b) = m ((c.tc : Thread nD τ).loc b) := fun b hb =>
      (h c _ (mem_uc b (by revert b; decide))).trans (W8_arg m ρ c b hb)
    simpa only [mainArgs, ↓List.forall_mem_singleton, List.forall_mem_cons] using k) (run m ρ)

end Cert.KernelIdeal.Hand

end
-- ==== Proof.KR0Data.lean ====
import proofs.«419566_j52175262711930_3_alg».proof.Proof.Gen.Kernel.Launch
import proofs.«419566_j52175262711930_3_alg».proof.Proof.Gen.Kernel.Skeleton
import proofs.«419566_j52175262711930_3_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev pt0_0 : Fin cfg0.N := ⟨0, by decide⟩

def xw0 : Vec F S10112x128 .f32 := k0_pay2 (iblk0 V c 0 pt0_0) (iblk0 V c 1 pt0_0)

def accAt0 : (n : ℕ) → n < cfg0.N → Vec F S10112x128 .f32
  | 0, hn => k0_pay4 (iblk0 V c 3 ⟨0, hn⟩) (iblk0 V c 4 ⟨0, hn⟩) (iblk0 V c 5 ⟨0, hn⟩) (xw0 V c) (k0_pay3 (F := F))
  | n + 1, hn => k0_pay4 (iblk0 V c 3 ⟨n + 1, hn⟩) (iblk0 V c 4 ⟨n + 1, hn⟩) (iblk0 V c 5 ⟨n + 1, hn⟩) (xw0 V c) (accAt0 n (Nat.lt_of_succ_lt hn))

def out0_6 (t : Fin cfg0.N) : Vec F S10112x128 .f32 := k0_pay1 (accAt0 V c t.val t.isLt) (iblk0 V c 2 t)

def Φ0 (t : Fin (cfg0.N + 1)) : sProp 𝕄 :=
  iprop((match t with
      | ⟨0, _⟩ => iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
      | ⟨n + 1, h⟩ => iprop(owns (c : Thread nD τ) (Memref.whole cc0_scratch0) fullShare (xw0 V c)
          ∗ owns (c : Thread nD τ) (Memref.whole cc0_scratch1) fullShare (accAt0 V c n (Nat.lt_of_succ_lt_succ h))))
    ∗ Pipeline.scopedRestBut (Ix := Unit) (Name := ℕ) (U := UR sig nD τ) (Lvl := ℕ) (Val := Elt F) spec0 c [cc0_scratch0, cc0_scratch1]
    ∗ ∃ r, prngReg c r)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 V c t
  Φ t := Φ0 V c t
  q _ := fullShare
  owed _ := 0

end Cert.Kernel.Hand

end
-- ==== Proof.KR0Body.lean ====
import proofs.«419566_j52175262711930_3_alg».proof.Proof.KR0Data
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (BodyObligation)

variable {F : FTy → Type} [FloatOps F]

local notation "𝕄" => MT nD τ sig Unit (Elt F) ℕ (UR sig nD τ) ℕ

section Whole

variable {κ : Kind} {sp : Space} {S : Shape} {e : EltTy} {off : Fin S.rank → ℕ} (inb : ∀ a, off a + S.size a ≤ S.size a)
include inb

theorem r0_off : off = fun _ => 0 := funext fun a => by have := inb a; omega

theorem r0_readAt_unread {m : Memref sig κ sp S e} (h : m.IsWhole) (X) :
    View.readAt (Elt F) m.view (Rect.unit off S.size inb).toLoadRect (h.unread X) = X := by
  rw [View.readAt_eq_ld, h.read_unread, View.ld_unit_zero (r0_off inb) inb]

theorem r0_read_writes_cons (v : View sig κ sp S e) (f w L) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero (r0_off inb) inb y⟩),
    View.canon_cons_unit_zero (r0_off inb) inb w L]

theorem r0_readCov (v : View sig κ sp S e) (w) :
    v.readCov [(⟨Rect.unit off S.size inb, w⟩ : View.Piece (Elt F) S e)] (Rect.unit off S.size inb).toLoadRect = w :=
  View.readCov_unit_zero v (r0_off inb) inb w

end Whole

abbrev cond0_0 (i : grid0.Coords) : Prop := (Scalar.cmpi .ne (Scalar.extui (Scalar.cmpi .eq (BitVec.ofNat 32 (i 0).val) 0#32)) 0#32) = 1#1
theorem hcond0_0 : ∀ t : Fin grid0.N, cond0_0 (grid0.coords t) ↔ t.val = 0 := by decide +kernel
abbrev cond0_1 (i : grid0.Coords) : Prop := k0_cond2 i = 1#1
theorem hcond0_1 : ∀ t : Fin grid0.N, cond0_1 (grid0.coords t) ↔ t.val % 2579 = 2578 := by decide +kernel
theorem hidle0_6 : ∀ t : Fin cfg0.N, cfg0.idle 6 (cfg0.grid.coords t) = true ↔ ¬ t.val % 2579 = 2578 :=
  (by decide +kernel : ∀ t : Fin grid0.N, idle0 6 (grid0.coords t) = true ↔ ¬ t.val % 2579 = 2578)

abbrev r0_o (c : Dev nD) {sp : Space} {S : Shape} {e : EltTy} (m : Memref sig .tc sp S e) (X : S.Idx → Elt F e) : sProp 𝕄 :=
  owns (c : Thread nD τ) m fullShare X

theorem r0_o_unread (c : Dev nD) {sp : Space} {S : Shape} {e : EltTy} {m : Memref sig .tc sp S e} (h : m.IsWhole) (X : S.Idx → Elt F e) :
    r0_o c m X = (m.view.loc (c : Thread nD τ) ↦[m.view.set]{fullShare} h.unread X : sProp 𝕄) := by
  refine BI.equiv_iff.mp ⟨?_, ?_⟩ <;> show (_ : sProp 𝕄) ⊢ _ <;> unfold r0_o owns
  · iintro ⟨%f, %hf, H⟩; obtain rfl := h.eq_unread hf; iexact H
  · iintro H; iexists _; isplitr; · ipureintro; exact h.read_unread X
    iexact H

theorem sound_kernel0_first {c E i arg1 arg2 arg3 arg4 arg5 arg6 arg7 arg8 arg9 K harg1 harg2 harg3 harg4 harg5 harg6 harg7 harg8 harg9 x0 x1 x3 x4 x5}
    (hc0 : cond0_0 i) (hc1 : ¬cond0_1 i) :
    iprop(r0_o c arg1 x0 ∗ r0_o c arg2 x1 ∗ r0_o c arg4 x3 ∗ r0_o c arg5 x4 ∗ r0_o c arg6 x5 ∗ (∃ d, r0_o c arg8 d) ∗ (∃ d, r0_o c arg9 d)
        ∗ (iprop(r0_o c arg1 x0 ∗ r0_o c arg2 x1 ∗ r0_o c arg4 x3 ∗ r0_o c arg5 x4 ∗ r0_o c arg6 x5 ∗ r0_o c arg8 (k0_pay2 x0 x1)
            ∗ r0_o c arg9 (k0_pay4 x3 x4 x5 (k0_pay2 x0 x1) (k0_pay3 (F := F)))) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  simp only [k0_part1_eq_skeleton]; unfold k0_part1_skel
  rw [r0_o_unread c harg1 x0, r0_o_unread c harg2 x1, r0_o_unread c harg4 x3, r0_o_unread c harg5 x4, r0_o_unread c harg6 x5]
  unfold r0_o owns
  iintro ⟨H1, H2, H4, H5, H6, ⟨%d8, %f8, -, H8⟩, ⟨%d9, %f9, -, H9⟩, Hk⟩
  sl_exec (disch := first | exact hc0 | exact hc1)
  sl_step
  iapply Hk
  iframe
  isplitl [H8] <;>
  · iexists _; isplitr; swap; · iassumption
    ipureintro; sl_unfold_run_names
    rw [r0_read_writes_cons]; repeat rw [r0_readAt_unread]
    repeat rw [r0_readCov]

theorem sound_kernel0_mid {c E i arg1 arg2 arg3 arg4 arg5 arg6 arg7 arg8 arg9 K harg1 harg2 harg3 harg4 harg5 harg6 harg7 harg8 harg9 x3 x4 x5 xw acc}
    (hc0 : ¬cond0_0 i) (hc1 : ¬cond0_1 i) :
    iprop(r0_o c arg4 x3 ∗ r0_o c arg5 x4 ∗ r0_o c arg6 x5 ∗ r0_o c arg8 xw ∗ r0_o c arg9 acc
        ∗ (iprop(r0_o c arg4 x3 ∗ r0_o c arg5 x4 ∗ r0_o c arg6 x5 ∗ r0_o c arg8 xw ∗ r0_o c arg9 (k0_pay4 x3 x4 x5 xw acc)) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  simp only [k0_part1_eq_skeleton]; unfold k0_part1_skel
  rw [r0_o_unread c harg4 x3, r0_o_unread c harg5 x4, r0_o_unread c harg6 x5, r0_o_unread c harg8 xw, r0_o_unread c harg9 acc]
  unfold r0_o owns
  iintro ⟨H4, H5, H6, H8, H9, Hk⟩
  sl_exec (disch := first | exact hc0 | exact hc1)
  sl_step
  iapply Hk
  iframe
  iexists _; isplitr; swap; · iassumption
  ipureintro; sl_unfold_run_names
  rw [r0_read_writes_cons]; repeat rw [r0_readAt_unread]

theorem sound_kernel0_last {c E i arg1 arg2 arg3 arg4 arg5 arg6 arg7 arg8 arg9 K harg1 harg2 harg3 harg4 harg5 harg6 harg7 harg8 harg9 x2 x3 x4 x5 xw acc}
    (hc0 : ¬cond0_0 i) (hc1 : cond0_1 i) :
    iprop(r0_o c arg3 x2 ∗ r0_o c arg4 x3 ∗ r0_o c arg5 x4 ∗ r0_o c arg6 x5 ∗ (∃ d, r0_o c arg7 d) ∗ r0_o c arg8 xw ∗ r0_o c arg9 acc
        ∗ (iprop(r0_o c arg3 x2 ∗ r0_o c arg4 x3 ∗ r0_o c arg5 x4 ∗ r0_o c arg6 x5 ∗ r0_o c arg7 (k0_pay1 (k0_pay4 x3 x4 x5 xw acc) x2)
            ∗ r0_o c arg8 xw ∗ r0_o c arg9 (k0_pay4 x3 x4 x5 xw acc)) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  simp only [k0_part1_eq_skeleton]; unfold k0_part1_skel
  rw [r0_o_unread c harg3 x2, r0_o_unread c harg4 x3, r0_o_unread c harg5 x4, r0_o_unread c harg6 x5, r0_o_unread c harg8 xw, r0_o_unread c harg9 acc]
  unfold r0_o owns
  iintro ⟨H3, H4, H5, H6, ⟨%d7, %f7, -, H7⟩, H8, H9, Hk⟩
  sl_exec (disch := first | exact hc0 | exact hc1)
  sl_step
  iapply Hk
  iframe
  isplitl [H7] <;>
  · iexists _; isplitr; swap; · iassumption
    ipureintro; sl_unfold_run_names
    rw [r0_read_writes_cons]; repeat rw [r0_readAt_unread]
    repeat rw [r0_readCov]

variable (V : (c : Dev nD) → (b : Ref sig .tc) → Buf (Elt F) ((c : Thread nD τ).loc b))

theorem r0_before (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) ∧ (∀ d, (dat0 V c).before 5 t d = iblk0 V c 5 t) := by
  refine ⟨?_, ?_, ?_, ?_, ?_, ?_⟩ <;>
    exact (dat0 V c).before_in_eq_fetched _ rfl (fun _ => rfl) (fun _ _ _ => rfl) (fun _ => rfl) t

theorem body_obligation0 (c : Dev nD) : BodyObligation (dat0 (F := F) V c) (defs₀ (F := F)) Variants.none () Set.univ := fun t => by
  rw [bigSep_W0, bigSep_W0]
  have hΦ0 : ∀ h, (dat0 V c).Φ ⟨0, h⟩ = iprop(((∃ d, r0_o c (.whole cc0_scratch0) d) ∗ ∃ d, r0_o c (.whole cc0_scratch1) d) ∗ _) :=
    fun _ => by unfold r0_o; simp only [owns_whole]; rfl
  have hΦ : ∀ n h, (dat0 V c).Φ ⟨n + 1, h⟩
      = iprop((r0_o c (.whole cc0_scratch0) (xw0 V c) ∗ r0_o c (.whole cc0_scratch1) (accAt0 V c n _)) ∗ _) := fun _ _ => rfl
  have ha : ∀ t, (dat0 V c).after 0 t = iblk0 V c 0 t ∧ (dat0 V c).after 1 t = iblk0 V c 1 t ∧ (dat0 V c).after 2 t = iblk0 V c 2 t
      ∧ (dat0 V c).after 3 t = iblk0 V c 3 t ∧ (dat0 V c).after 4 t = iblk0 V c 4 t ∧ (dat0 V c).after 5 t = iblk0 V c 5 t
      ∧ (dat0 V c).after 6 t = out0_6 V c t := fun _ => ⟨rfl, rfl, rfl, rfl, rfl, rfl, rfl⟩
  obtain ⟨n, hn⟩ := t
  by_cases hl : n % 2579 = 2578
  on_goal 1 => rw [Bool.eq_false_iff.mpr fun h => (hidle0_6 ⟨n, hn⟩).mp h hl]
  on_goal 2 => rw [(hidle0_6 ⟨n, hn⟩).mpr hl, Bool.eq_false_iff.mpr fun h => hl ((flush0_6 ⟨n, hn⟩).mp h)]
  all_goals
    rw [show (dat0 V c).owesAt () (Fin.succ ⟨n, hn⟩) = (dat0 V c).owesAt () (Fin.castSucc ⟨n, hn⟩) from rfl,
      Fin.succ_mk, Fin.castSucc_mk, hΦ]
    simp only [r0_before V c _, ha, out0_6, idle0]
    rcases n with _ | n
  · exact absurd hl (by decide)
  · rw [hΦ, accAt0]
    iintro ⟨⟨⟨H8, H9⟩, Hr⟩, Ho, ⟨%_, H0⟩, ⟨%_, H1⟩, ⟨%_, H2⟩, ⟨%_, H3⟩, ⟨%_, H4⟩, ⟨%_, H5⟩, ⟨%_, H6⟩⟩
    iapply sound_kernel0_last (fun h => n.succ_ne_zero ((hcond0_0 ⟨n + 1, hn⟩).mp h)) ((hcond0_1 ⟨n + 1, hn⟩).mpr hl)
    iframe H2 H3 H4 H5 H8 H9
    isplitl [H6]; · iexists _; iexact H6
    iintro ⟨H2, H3, H4, H5, H6, H8, H9⟩
    iframe
  · rw [hΦ0, accAt0, xw0]
    iintro ⟨⟨⟨H8, H9⟩, Hr⟩, Ho, ⟨%_, H0⟩, ⟨%_, H1⟩, ⟨%_, H2⟩, ⟨%_, H3⟩, ⟨%_, H4⟩, ⟨%_, H5⟩, H6⟩
    iapply sound_kernel0_first ((hcond0_0 ⟨0, hn⟩).mpr rfl) fun h => hl ((hcond0_1 ⟨0, hn⟩).mp h)
    iframe H0 H1 H3 H4 H5 H8 H9
    iintro ⟨H0, H1, H3, H4, H5, H8, H9⟩
    iframe
  · rw [hΦ, accAt0]
    iintro ⟨⟨⟨H8, H9⟩, Hr⟩, Ho, ⟨%_, H0⟩, ⟨%_, H1⟩, ⟨%_, H2⟩, ⟨%_, H3⟩, ⟨%_, H4⟩, ⟨%_, H5⟩, H6⟩
    iapply sound_kernel0_mid (fun h => n.succ_ne_zero ((hcond0_0 ⟨n + 1, hn⟩).mp h)) fun h => hl ((hcond0_1 ⟨n + 1, hn⟩).mp h)
    iframe H3 H4 H5 H8 H9
    iintro ⟨H3, H4, H5, H8, H9⟩
    iframe

end Cert.Kernel.Hand

end
-- ==== Proof.KR1Data.lean ====
import proofs.«419566_j52175262711930_3_alg».proof.Proof.Gen.Kernel.Launch
import proofs.«419566_j52175262711930_3_alg».proof.Proof.Gen.Kernel.Skeleton
import proofs.«419566_j52175262711930_3_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev pt1_0 : Fin cfg1.N := ⟨0, by decide⟩

def xw1 : Vec F S10112x128 .f32 := k1_pay2 (iblk1 V c 0 pt1_0) (iblk1 V c 1 pt1_0)

def accAt1 : (n : ℕ) → n < cfg1.N → Vec F S10112x128 .f32
  | 0, hn => k1_pay4 (iblk1 V c 3 ⟨0, hn⟩) (iblk1 V c 4 ⟨0, hn⟩) (iblk1 V c 5 ⟨0, hn⟩) (xw1 V c) (k1_pay3 (F := F))
  | n + 1, hn => k1_pay4 (iblk1 V c 3 ⟨n + 1, hn⟩) (iblk1 V c 4 ⟨n + 1, hn⟩) (iblk1 V c 5 ⟨n + 1, hn⟩) (xw1 V c) (accAt1 n (Nat.lt_of_succ_lt hn))

def out1_6 (t : Fin cfg1.N) : Vec F S10112x128 .f32 := k1_pay1 (accAt1 V c t.val t.isLt) (iblk1 V c 2 t)

def Φ1 (t : Fin (cfg1.N + 1)) : sProp 𝕄 :=
  iprop((match t with
      | ⟨0, _⟩ => iprop((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f))
      | ⟨n + 1, h⟩ => iprop(owns (c : Thread nD τ) (Memref.whole cc1_scratch0) fullShare (xw1 V c)
          ∗ owns (c : Thread nD τ) (Memref.whole cc1_scratch1) fullShare (accAt1 V c n (Nat.lt_of_succ_lt_succ h))))
    ∗ Pipeline.scopedRestBut (Ix := Unit) (Name := ℕ) (U := UR sig nD τ) (Lvl := ℕ) (Val := Elt F) spec1 c [cc1_scratch0, cc1_scratch1]
    ∗ ∃ r, prngReg c r)

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
  Φ t := Φ1 V c t
  q _ := fullShare
  owed _ := 0

end Cert.Kernel.Hand

end
-- ==== Proof.KR1Body.lean ====
import proofs.«419566_j52175262711930_3_alg».proof.Proof.KR1Data
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (BodyObligation)

variable {F : FTy → Type} [FloatOps F]

local notation "𝕄" => MT nD τ sig Unit (Elt F) ℕ (UR sig nD τ) ℕ

section Whole

variable {κ : Kind} {sp : Space} {S : Shape} {e : EltTy} {off : Fin S.rank → ℕ} (inb : ∀ a, off a + S.size a ≤ S.size a)
include inb

theorem r1_off : off = fun _ => 0 := funext fun a => by have := inb a; omega

theorem r1_readAt_unread {m : Memref sig κ sp S e} (h : m.IsWhole) (X) :
    View.readAt (Elt F) m.view (Rect.unit off S.size inb).toLoadRect (h.unread X) = X := by
  rw [View.readAt_eq_ld, h.read_unread, View.ld_unit_zero (r1_off inb) inb]

theorem r1_read_writes_cons (v : View sig κ sp S e) (f w L) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero (r1_off inb) inb y⟩),
    View.canon_cons_unit_zero (r1_off inb) inb w L]

theorem r1_readCov (v : View sig κ sp S e) (w) :
    v.readCov [(⟨Rect.unit off S.size inb, w⟩ : View.Piece (Elt F) S e)] (Rect.unit off S.size inb).toLoadRect = w :=
  View.readCov_unit_zero v (r1_off inb) inb w

end Whole

abbrev cond1_0 (i : grid1.Coords) : Prop := (Scalar.cmpi .ne (Scalar.extui (Scalar.cmpi .eq (BitVec.ofNat 32 (i 0).val) 0#32)) 0#32) = 1#1
theorem hcond1_0 : ∀ t : Fin grid1.N, cond1_0 (grid1.coords t) ↔ t.val = 0 := by decide +kernel
abbrev cond1_1 (i : grid1.Coords) : Prop := k1_cond2 i = 1#1
theorem hcond1_1 : ∀ t : Fin grid1.N, cond1_1 (grid1.coords t) ↔ t.val % 2579 = 2578 := by decide +kernel
theorem hidle1_6 : ∀ t : Fin cfg1.N, cfg1.idle 6 (cfg1.grid.coords t) = true ↔ ¬ t.val % 2579 = 2578 :=
  (by decide +kernel : ∀ t : Fin grid1.N, idle1 6 (grid1.coords t) = true ↔ ¬ t.val % 2579 = 2578)

abbrev r1_o (c : Dev nD) {sp : Space} {S : Shape} {e : EltTy} (m : Memref sig .tc sp S e) (X : S.Idx → Elt F e) : sProp 𝕄 :=
  owns (c : Thread nD τ) m fullShare X

theorem r1_o_unread (c : Dev nD) {sp : Space} {S : Shape} {e : EltTy} {m : Memref sig .tc sp S e} (h : m.IsWhole) (X : S.Idx → Elt F e) :
    r1_o c m X = (m.view.loc (c : Thread nD τ) ↦[m.view.set]{fullShare} h.unread X : sProp 𝕄) := by
  refine BI.equiv_iff.mp ⟨?_, ?_⟩ <;> show (_ : sProp 𝕄) ⊢ _ <;> unfold r1_o owns
  · iintro ⟨%f, %hf, H⟩; obtain rfl := h.eq_unread hf; iexact H
  · iintro H; iexists _; isplitr; · ipureintro; exact h.read_unread X
    iexact H

theorem sound_kernel1_first {c E i arg1 arg2 arg3 arg4 arg5 arg6 arg7 arg8 arg9 K harg1 harg2 harg3 harg4 harg5 harg6 harg7 harg8 harg9 x0 x1 x3 x4 x5}
    (hc0 : cond1_0 i) (hc1 : ¬cond1_1 i) :
    iprop(r1_o c arg1 x0 ∗ r1_o c arg2 x1 ∗ r1_o c arg4 x3 ∗ r1_o c arg5 x4 ∗ r1_o c arg6 x5 ∗ (∃ d, r1_o c arg8 d) ∗ (∃ d, r1_o c arg9 d)
        ∗ (iprop(r1_o c arg1 x0 ∗ r1_o c arg2 x1 ∗ r1_o c arg4 x3 ∗ r1_o c arg5 x4 ∗ r1_o c arg6 x5 ∗ r1_o c arg8 (k1_pay2 x0 x1)
            ∗ r1_o c arg9 (k1_pay4 x3 x4 x5 (k1_pay2 x0 x1) (k1_pay3 (F := F)))) -∗ K ⟨⟩))
      ⊢ wp frame (wpE (defs₀ (F := F)) Variants.none c none) E
          (cc1__gcn_kernel i arg1 harg1 arg2 harg2 arg3 harg3 arg4 harg4 arg5 harg5 arg6 harg6 arg7 harg7 arg8 harg8 arg9 harg9) K := by
  simp only [cc1__gcn_kernel_eq_skeleton]; unfold cc1__gcn_kernel_skel
  simp only [k1_part1_eq_skeleton]; unfold k1_part1_skel
  rw [r1_o_unread c harg1 x0, r1_o_unread c harg2 x1, r1_o_unread c harg4 x3, r1_o_unread c harg5 x4, r1_o_unread c harg6 x5]
  unfold r1_o owns
  iintro ⟨H1, H2, H4, H5, H6, ⟨%d8, %f8, -, H8⟩, ⟨%d9, %f9, -, H9⟩, Hk⟩
  sl_exec (disch := first | exact hc0 | exact hc1)
  sl_step
  iapply Hk
  iframe
  isplitl [H8] <;>
  · iexists _; isplitr; swap; · iassumption
    ipureintro; sl_unfold_run_names
    rw [r1_read_writes_cons]; repeat rw [r1_readAt_unread]
    repeat rw [r1_readCov]

theorem sound_kernel1_mid {c E i arg1 arg2 arg3 arg4 arg5 arg6 arg7 arg8 arg9 K harg1 harg2 harg3 harg4 harg5 harg6 harg7 harg8 harg9 x3 x4 x5 xw acc}
    (hc0 : ¬cond1_0 i) (hc1 : ¬cond1_1 i) :
    iprop(r1_o c arg4 x3 ∗ r1_o c arg5 x4 ∗ r1_o c arg6 x5 ∗ r1_o c arg8 xw ∗ r1_o c arg9 acc
        ∗ (iprop(r1_o c arg4 x3 ∗ r1_o c arg5 x4 ∗ r1_o c arg6 x5 ∗ r1_o c arg8 xw ∗ r1_o c arg9 (k1_pay4 x3 x4 x5 xw acc)) -∗ K ⟨⟩))
      ⊢ wp frame (wpE (defs₀ (F := F)) Variants.none c none) E
          (cc1__gcn_kernel i arg1 harg1 arg2 harg2 arg3 harg3 arg4 harg4 arg5 harg5 arg6 harg6 arg7 harg7 arg8 harg8 arg9 harg9) K := by
  simp only [cc1__gcn_kernel_eq_skeleton]; unfold cc1__gcn_kernel_skel
  simp only [k1_part1_eq_skeleton]; unfold k1_part1_skel
  rw [r1_o_unread c harg4 x3, r1_o_unread c harg5 x4, r1_o_unread c harg6 x5, r1_o_unread c harg8 xw, r1_o_unread c harg9 acc]
  unfold r1_o owns
  iintro ⟨H4, H5, H6, H8, H9, Hk⟩
  sl_exec (disch := first | exact hc0 | exact hc1)
  sl_step
  iapply Hk
  iframe
  iexists _; isplitr; swap; · iassumption
  ipureintro; sl_unfold_run_names
  rw [r1_read_writes_cons]; repeat rw [r1_readAt_unread]

theorem sound_kernel1_last {c E i arg1 arg2 arg3 arg4 arg5 arg6 arg7 arg8 arg9 K harg1 harg2 harg3 harg4 harg5 harg6 harg7 harg8 harg9 x2 x3 x4 x5 xw acc}
    (hc0 : ¬cond1_0 i) (hc1 : cond1_1 i) :
    iprop(r1_o c arg3 x2 ∗ r1_o c arg4 x3 ∗ r1_o c arg5 x4 ∗ r1_o c arg6 x5 ∗ (∃ d, r1_o c arg7 d) ∗ r1_o c arg8 xw ∗ r1_o c arg9 acc
        ∗ (iprop(r1_o c arg3 x2 ∗ r1_o c arg4 x3 ∗ r1_o c arg5 x4 ∗ r1_o c arg6 x5 ∗ r1_o c arg7 (k1_pay1 (k1_pay4 x3 x4 x5 xw acc) x2)
            ∗ r1_o c arg8 xw ∗ r1_o c arg9 (k1_pay4 x3 x4 x5 xw acc)) -∗ K ⟨⟩))
      ⊢ wp frame (wpE (defs₀ (F := F)) Variants.none c none) E
          (cc1__gcn_kernel i arg1 harg1 arg2 harg2 arg3 harg3 arg4 harg4 arg5 harg5 arg6 harg6 arg7 harg7 arg8 harg8 arg9 harg9) K := by
  simp only [cc1__gcn_kernel_eq_skeleton]; unfold cc1__gcn_kernel_skel
  simp only [k1_part1_eq_skeleton]; unfold k1_part1_skel
  rw [r1_o_unread c harg3 x2, r1_o_unread c harg4 x3, r1_o_unread c harg5 x4, r1_o_unread c harg6 x5, r1_o_unread c harg8 xw, r1_o_unread c harg9 acc]
  unfold r1_o owns
  iintro ⟨H3, H4, H5, H6, ⟨%d7, %f7, -, H7⟩, H8, H9, Hk⟩
  sl_exec (disch := first | exact hc0 | exact hc1)
  sl_step
  iapply Hk
  iframe
  isplitl [H7] <;>
  · iexists _; isplitr; swap; · iassumption
    ipureintro; sl_unfold_run_names
    rw [r1_read_writes_cons]; repeat rw [r1_readAt_unread]
    repeat rw [r1_readCov]

variable (V : (c : Dev nD) → (b : Ref sig .tc) → Buf (Elt F) ((c : Thread nD τ).loc b))

theorem r1_before (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t) := by
  refine ⟨?_, ?_, ?_, ?_, ?_, ?_⟩ <;>
    exact (dat1 V c).before_in_eq_fetched _ rfl (fun _ => rfl) (fun _ _ _ => rfl) (fun _ => rfl) t

theorem body_obligation1 (c : Dev nD) : BodyObligation (dat1 (F := F) V c) (defs₀ (F := F)) Variants.none () Set.univ := fun t => by
  rw [bigSep_W1, bigSep_W1]
  have hΦ0 : ∀ h, (dat1 V c).Φ ⟨0, h⟩ = iprop(((∃ d, r1_o c (.whole cc1_scratch0) d) ∗ ∃ d, r1_o c (.whole cc1_scratch1) d) ∗ _) :=
    fun _ => by unfold r1_o; simp only [owns_whole]; rfl
  have hΦ : ∀ n h, (dat1 V c).Φ ⟨n + 1, h⟩
      = iprop((r1_o c (.whole cc1_scratch0) (xw1 V c) ∗ r1_o c (.whole cc1_scratch1) (accAt1 V c n _)) ∗ _) := fun _ _ => rfl
  have ha : ∀ t, (dat1 V c).after 0 t = iblk1 V c 0 t ∧ (dat1 V c).after 1 t = iblk1 V c 1 t ∧ (dat1 V c).after 2 t = iblk1 V c 2 t
      ∧ (dat1 V c).after 3 t = iblk1 V c 3 t ∧ (dat1 V c).after 4 t = iblk1 V c 4 t ∧ (dat1 V c).after 5 t = iblk1 V c 5 t
      ∧ (dat1 V c).after 6 t = out1_6 V c t := fun _ => ⟨rfl, rfl, rfl, rfl, rfl, rfl, rfl⟩
  obtain ⟨n, hn⟩ := t
  by_cases hl : n % 2579 = 2578
  on_goal 1 => rw [Bool.eq_false_iff.mpr fun h => (hidle1_6 ⟨n, hn⟩).mp h hl]
  on_goal 2 => rw [(hidle1_6 ⟨n, hn⟩).mpr hl, Bool.eq_false_iff.mpr fun h => hl ((flush1_6 ⟨n, hn⟩).mp h)]
  all_goals
    rw [show (dat1 V c).owesAt () (Fin.succ ⟨n, hn⟩) = (dat1 V c).owesAt () (Fin.castSucc ⟨n, hn⟩) from rfl,
      Fin.succ_mk, Fin.castSucc_mk, hΦ]
    simp only [r1_before V c _, ha, out1_6, idle1]
    rcases n with _ | n
  · exact absurd hl (by decide)
  · rw [hΦ, accAt1]
    iintro ⟨⟨⟨H8, H9⟩, Hr⟩, Ho, ⟨%_, H0⟩, ⟨%_, H1⟩, ⟨%_, H2⟩, ⟨%_, H3⟩, ⟨%_, H4⟩, ⟨%_, H5⟩, ⟨%_, H6⟩⟩
    iapply sound_kernel1_last (fun h => n.succ_ne_zero ((hcond1_0 ⟨n + 1, hn⟩).mp h)) ((hcond1_1 ⟨n + 1, hn⟩).mpr hl)
    iframe H2 H3 H4 H5 H8 H9
    isplitl [H6]; · iexists _; iexact H6
    iintro ⟨H2, H3, H4, H5, H6, H8, H9⟩
    iframe
  · rw [hΦ0, accAt1, xw1]
    iintro ⟨⟨⟨H8, H9⟩, Hr⟩, Ho, ⟨%_, H0⟩, ⟨%_, H1⟩, ⟨%_, H2⟩, ⟨%_, H3⟩, ⟨%_, H4⟩, ⟨%_, H5⟩, H6⟩
    iapply sound_kernel1_first ((hcond1_0 ⟨0, hn⟩).mpr rfl) fun h => hl ((hcond1_1 ⟨0, hn⟩).mp h)
    iframe H0 H1 H3 H4 H5 H8 H9
    iintro ⟨H0, H1, H3, H4, H5, H8, H9⟩
    iframe
  · rw [hΦ, accAt1]
    iintro ⟨⟨⟨H8, H9⟩, Hr⟩, Ho, ⟨%_, H0⟩, ⟨%_, H1⟩, ⟨%_, H2⟩, ⟨%_, H3⟩, ⟨%_, H4⟩, ⟨%_, H5⟩, H6⟩
    iapply sound_kernel1_mid (fun h => n.succ_ne_zero ((hcond1_0 ⟨n + 1, hn⟩).mp h)) fun h => hl ((hcond1_1 ⟨n + 1, hn⟩).mp h)
    iframe H3 H4 H5 H8 H9
    iintro ⟨H3, H4, H5, H8, H9⟩
    iframe

end Cert.Kernel.Hand

end
-- ==== Proof.KR2Data.lean ====
import proofs.«419566_j52175262711930_3_alg».proof.Proof.Gen.Kernel.Launch
import proofs.«419566_j52175262711930_3_alg».proof.Proof.Gen.Kernel.Skeleton
import proofs.«419566_j52175262711930_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Cert.Kernel.Gen
open Idealize.ShloMosaic Idealize.ShloMosaic.TcCoe
open Idealize.SL.RA
open Idealize.ShloMosaic.Pipeline (Dat)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_o : Rect S128x1 := Rect.unit (s := S128x1) ![0, 0] S128x1.size inb_S128x1_S128x1_0_0

def out2_9 (x0 x1 : Vec F S128x128 .f32) (x2 : Vec F S1x128 .f32) (x3 : Vec F S128x1 .f32) (x4 : Vec F S1x1 .f32) : Vec F S128x1 .f32 :=
  View.canon [⟨r2_o, k2_pay3 x0 x1 x2 x3 x4⟩]

def out2_10 (x0 x5 : Vec F S128x128 .f32) (x6 : Vec F S1x128 .f32) (x7 : Vec F S128x1 .f32) (x8 : Vec F S1x1 .f32) : Vec F S128x1 .f32 :=
  View.canon [⟨r2_o, k2_pay1 (k2_pay4 x0 x5 x6 x7) x8⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t)
    | ⟨10, _⟩ => out2_10 (iblk2 V c 0 t) (iblk2 V c 5 t) (iblk2 V c 6 t) (iblk2 V c 7 t) (iblk2 V c 8 t)
  Φ _ := Pipeline.ΦA spec2 c
  q _ := fullShare
  owed _ := 0
end Cert.Kernel.Hand

end
-- ==== Proof.KR2Body.lean ====
import proofs.«419566_j52175262711930_3_alg».proof.Proof.KR2Data

namespace Cert.Kernel.Hand

open Cert.Kernel.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

theorem r2_readAt_unit_eq_read {sg : RefSig} {κ : Kind} {sp : Space} {s : Shape} {e : EltTy} {Val : EltTy → Type}
    (v : View sg κ sp s e) {off : Fin s.rank → Nat} (inb : ∀ a, off a + s.size a ≤ s.size a) (f : v.ty.Contents Val) :
    v.readAt Val (Rect.unit off s.size inb).toLoadRect f = v.read Val f := by
  obtain rfl : off = fun _ => 0 := funext fun a => by have := inb a; omega
  exact funext fun x => congrArg (v.read Val f) (LoadRect.idx_whole x)

theorem before2 (c : Dev nD) (t : Fin cfg2.N) (w : Fin 11) (hw : (cfg2.win w).isOut = false) :
    ∀ d, (dat2 V c).before w t d = (dat2 V c).fetched w t d := by
  fin_cases w <;> first
    | exact (dat2 V c).before_in_eq_fetched _ hw (fun _ => rfl) (fun _ _ _ => rfl) (fun _ => rfl) t
    | exact absurd hw (by decide)

theorem sound_kernel2 {c : Dev nD} {E : Set ℕ} {i : grid2.Coords}
    {a1 a2 a6 : Memref sig .tc .vmem S128x128 .f32} {a3 a7 : Memref sig .tc .vmem S1x128 .f32}
    {a4 a8 a10 a11 : Memref sig .tc .vmem S128x1 .f32} {a5 a9 : Memref sig .tc .vmem S1x1 .f32}
    {h1 : a1.IsWhole} {h2 : a2.IsWhole} {h3 : a3.IsWhole} {h4 : a4.IsWhole} {h5 : a5.IsWhole} {h6 : a6.IsWhole}
    {h7 : a7.IsWhole} {h8 : a8.IsWhole} {h9 : a9.IsWhole} {h10 : a10.IsWhole} {h11 : a11.IsWhole}
    {x0 x1 x5 : Vec F S128x128 .f32} {x2 x6 : Vec F S1x128 .f32} {x3 x7 d9 d10 : Vec F S128x1 .f32} {x4 x8 : Vec F S1x1 .f32}
    {K : PUnit → sProp (MT nD τ sig Unit (Elt F) ℕ (UR sig nD τ) ℕ)} :
    let P (y9 y10 : Vec F S128x1 .f32) := iprop(ownsTc c a1 fullShare x0 ∗ ownsTc c a2 fullShare x1 ∗ ownsTc c a3 fullShare x2
      ∗ ownsTc c a4 fullShare x3 ∗ ownsTc c a5 fullShare x4 ∗ ownsTc c a6 fullShare x5 ∗ ownsTc c a7 fullShare x6
      ∗ ownsTc c a8 fullShare x7 ∗ ownsTc c a9 fullShare x8 ∗ ownsTc c a10 fullShare y9 ∗ ownsTc c a11 fullShare y10)
    iprop(P d9 d10 ∗ (P (out2_9 x0 x1 x2 x3 x4) (out2_10 x0 x5 x6 x7 x8) -∗ K ⟨⟩))
      ⊢ wp frame (wpE (defs₀ (F := F)) Variants.none c none) E
          (cc2__qhead_kernel i a1 h1 a2 h2 a3 h3 a4 h4 a5 h5 a6 h6 a7 h7 a8 h8 a9 h9 a10 h10 a11 h11) K := by
  simp only [cc2__qhead_kernel_eq_skeleton]; unfold cc2__qhead_kernel_skel
  simp only [k2_part1_eq_skeleton]; unfold k2_part1_skel
  unfold ownsTc owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, -, H9⟩, ⟨%f10, -, H10⟩⟩, Hk⟩
  subst hf0 hf1 hf2 hf3 hf4 hf5 hf6 hf7 hf8
  sl_exec
  sl_step
  iapply Hk
  isplitl [H0]; rotate_left
  isplitl [H1]; rotate_left
  isplitl [H2]; rotate_left
  isplitl [H3]; rotate_left
  isplitl [H4]; rotate_left
  isplitl [H5]; rotate_left
  isplitl [H6]; rotate_left
  isplitl [H7]; rotate_left
  isplitl [H8]; rotate_left
  isplitl [H9]
  all_goals
    iexists _; isplitr; swap; · iassumption
    ipureintro
    first
      | refine (View.read_writes_eq_canon _ _ _ (View.cover_of_tiled _ S128x1.size (by rfl))).trans ?_
        simp only [out2_9, out2_10]
        repeat rw [r2_readAt_unit_eq_read]
      | rfl

theorem body_obligation2 (c : Dev nD) : BodyObligation (dat2 (F := F) V c) (defs₀ (F := F)) Variants.none () Set.univ := fun t => by
  rw [bigSep_W2, bigSep_W2]
  simp (disch := exact rfl) only [before2 V c t]
  dsimp only [Dat.owesAt, Dat.bound, dat2]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩⟩
  iapply sound_kernel2
  dsimp only
  isplitr [HΦ Ho]
  · iframe
  iintro H
  iframe HΦ Ho
  iexact H

end Cert.Kernel.Hand
-- ==== Proof.KRun.lean ====
import proofs.«419566_j52175262711930_3_alg».proof.Proof.KR0Body
import proofs.«419566_j52175262711930_3_alg».proof.Proof.KR1Body
import proofs.«419566_j52175262711930_3_alg».proof.Proof.KR2Body
import proofs.«419566_j52175262711930_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

def W4 (c : Dev nD) : Valuation τ sig (Elt F) :=
  withArrays spec0 c (W3 m ρ c) fun w => (dat0 (V3 m ρ) c).arrAt w cfg0.N
theorem W4_arr (c : Dev nD) (w : Fin cfg0.W) :
    W4 m ρ c (arrRef spec0 w) = (dat0 (V3 m ρ) c).arrAt w cfg0.N :=
  withArrays_arr spec0 launch0.win.arr_inj c _ _ w
abbrev V4 : (c : Dev nD) → (b : Ref sig .tc) → Buf (Elt F) ((c : Thread nD τ).loc b) := fun c b => W4 m ρ c b

def W5 (c : Dev nD) : Valuation τ sig (Elt F) :=
  withArrays spec1 c (W4 m ρ c) fun w => (dat1 (V4 m ρ) c).arrAt w cfg1.N
theorem W5_arr (c : Dev nD) (w : Fin cfg1.W) :
    W5 m ρ c (arrRef spec1 w) = (dat1 (V4 m ρ) c).arrAt w cfg1.N :=
  withArrays_arr spec1 launch1.win.arr_inj c _ _ w

abbrev W6 := fun c => StableHlo.after hostOps2 (W5 m ρ c)
abbrev V6 : (c : Dev nD) → (b : Ref sig .tc) → Buf (Elt F) ((c : Thread nD τ).loc b) := fun c b => W6 m ρ c b

def W7 (c : Dev nD) : Valuation τ sig (Elt F) :=
  withArrays spec2 c (W6 m ρ c) fun w => (dat2 (V6 m ρ) c).arrAt w cfg2.N
theorem W7_arr (c : Dev nD) (w : Fin cfg2.W) :
    W7 m ρ c (arrRef spec2 w) = (dat2 (V6 m ρ) c).arrAt w cfg2.N :=
  withArrays_arr spec2 launch2.win.arr_inj c _ _ w

abbrev W8 : Dev nD → Valuation τ sig (Elt F) := fun c => StableHlo.after hostOps3 (W7 m ρ c)

def pdats : (p : Fin 3) → (c : Dev nD) → Dat τ (Elt F) Unit ℕ (UR sig nD τ) ℕ (pin (pcfgs (F := F)) adm p) c
  | ⟨0, _⟩ => fun c => dat0 (V3 m ρ) c
  | ⟨1, _⟩ => fun c => dat1 (V4 m ρ) c
  | ⟨2, _⟩ => fun c => dat2 (V6 m ρ) c
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev St (W : Dev nD → Valuation τ sig (Elt F)) (c : Dev nD) : sProp 𝕄 :=
  iprop(StableHlo.held (c : Thread nD τ) (ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ .none L lv :=
  HostSeg.ofOps _ _ _ _ _ (ucRefs τ sig) ops
    (fun op h => sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ ucRefs τ sig :=
  Finset.mem_filter.mpr ⟨StableHlo.devRef_mem_tcRefs b, h⟩

theorem inG {X P S T Z : sProp 𝕄} (h : S = iprop(T ∗ Z)) : iprop(X ∗ P ∗ S) ⊢ iprop(T ∗ Z ∗ X) := by
  subst h
  iintro ⟨Hx, -, Ht, Hz⟩
  isplitl [Ht]; · iexact Ht
  isplitl [Hz]; · iexact Hz
  iexact Hx

theorem outG {c : Dev nD} {X S Z : sProp 𝕄} {b₁ b₂ : Ref sig .tc} {f₁ f₂}
    (h : S = iprop(((∃ f, ((c : Thread nD τ).loc b₁) ↦{fullShare} f) ∗ ∃ f, ((c : Thread nD τ).loc b₂) ↦{fullShare} f) ∗ Z)) :
    iprop((owns (c : Thread nD τ) (Memref.whole b₁) fullShare f₁ ∗ owns (c : Thread nD τ) (Memref.whole b₂) fullShare f₂) ∗ Z ∗ X)
      ⊢ iprop(X ∗ emp ∗ S) := by
  subst h
  rw [owns_whole, owns_whole]
  iintro ⟨⟨H0, H1⟩, Hz, Hx⟩
  isplitl [Hx]; · iexact Hx
  isplitr; · iempintro
  isplitl [H0 H1]
  · isplitl [H0]; · iexists _; iexact H0
    iexists _; iexact H1
  iexact Hz

theorem entryG {c : Dev nD} {W : Dev nD → Valuation τ sig (Elt F)} {A Z P S : sProp 𝕄} {B : Set (SemLoc sig × Unit)}
    (h : (unscopedBufs c (fun b => W c b) : sProp 𝕄) ⊢ iprop(A ∗ Z)) (hP : iprop(emp) ⊢ P) (hB : ∀ x, x ∈ B) :
    iprop(St W c ∗ S) ⊢ |={Set.univ}=> iprop(A ∗ P ∗ owesWithin c 0 B ∗ (∃ r, prngReg c r) ∗ Z) := by
  rw [unscopedBufs_held] at h
  iintro ⟨⟨Hh, Hp, HO⟩, -⟩
  ihave H := h $$ Hh
  icases H with ⟨Ha, Hz⟩
  imodintro
  isplitl [Ha]; · iexact Ha
  isplitr; · iapply hP; iempintro
  isplitl [HO]
  · icases HO with ⟨%W', HO⟩; iexists W'; isplitr; · ipureintro; exact fun x _ => hB x
    iexact HO
  isplitl [Hp]; · iexact Hp
  iexact Hz

theorem exitG {c : Dev nD} {W : Dev nD → Valuation τ sig (Elt F)} {A Z : sProp 𝕄} {B : Set (SemLoc sig × Unit)}
    (h : iprop(A ∗ Z) ⊢ (unscopedBufs c (fun b => W c b) : sProp 𝕄)) :
    iprop(A ∗ owesWithin c 0 B ∗ (∃ r, prngReg c r) ∗ Z) ⊢ |={Set.univ}=> St W c := by
  rw [unscopedBufs_held] at h
  iintro ⟨Ha, HO, Hp, Hz⟩
  imodintro
  isplitl [Ha Hz]
  · iapply h; isplitl [Ha] <;> iassumption
  isplitl [Hp]; · iexact Hp
  icases HO with ⟨%W', -, HO⟩; iexists W'; iexact HO

theorem wa_rest {gr n : ℕ} (win : Fin n → WinSpec sig gr) (c : Dev nD) (V : Valuation τ sig (Elt F)) (A) (b : Ref sig .tc)
    (hb : b ∉ Finset.univ.image (arrRef win)) : withArrays win c V A b = V b :=
  withArrays_of_ne win c V A b fun w e => hb (Finset.mem_image.mpr ⟨w, Finset.mem_univ _, e⟩)

abbrev RS := RegionSeg (pcfgs (F := F)) adm (pdats m ρ) () defs₀ .none L lv

def reg0 : RS m ρ 0 where
  win := launch0.win.to₀
  block_pos := launch0.block_pos
  stage_whole := launch0.stage_whole
  K := PEmpty
  osem k := k.elim
  ho := OwnSemFacts.none _
  hbody c := (body_obligation0 (V3 m ρ) c).loose
  hwaits := hwaits_of_owed_zero _ _ _ _ L lv 0 fun _ _ => rfl
  pre := St (W3 m ρ)
  post := St (W4 m ρ)
  X c := iprop(∃ r, prngReg c r)
  Y c := iprop(∃ r, prngReg c r)
  Z c := unscopedRest spec0 c (V3 m ρ c)
  hentry c := entryG (arrays_of_unscopedBufs (p := 0) (pcfgs (F := F)) adm (pdats m ρ) launch0.win launch0.arr_whole c
    ((pdats m ρ 0 c).share_full fun _ => rfl) (V3 m ρ c) fun _ => rfl) .rfl fun _ => Or.inl trivial
  hin c := inG (scopedRest0_split c)
  hout c := by rw [ownSems0_none]; exact outG (scopedRest0_split c)
  hexit c := exitG (unscopedBufs_of_arrays (p := 0) (pcfgs (F := F)) adm launch0.win launch0.arr_whole c (pdats m ρ)
    ((pdats m ρ 0 c).share_full fun _ => rfl) (V3 m ρ c) (V4 m ρ c) _ (fun w => (W4_arr m ρ c w).symm) (wa_rest spec0 c _ _))

def reg1 : RS m ρ 1 where
  win := launch1.win.to₀
  block_pos := launch1.block_pos
  stage_whole := launch1.stage_whole
  K := PEmpty
  osem k := k.elim
  ho := OwnSemFacts.none _
  hbody c := (body_obligation1 (V4 m ρ) c).loose
  hwaits := hwaits_of_owed_zero _ _ _ _ L lv 1 fun _ _ => rfl
  pre := St (W4 m ρ)
  post := St (W5 m ρ)
  X c := iprop(∃ r, prngReg c r)
  Y c := iprop(∃ r, prngReg c r)
  Z c := unscopedRest spec1 c (V4 m ρ c)
  hentry c := entryG (arrays_of_unscopedBufs (p := 1) (pcfgs (F := F)) adm (pdats m ρ) launch1.win launch1.arr_whole c
    ((pdats m ρ 1 c).share_full fun _ => rfl) (V4 m ρ c) fun _ => rfl) .rfl fun _ => Or.inl trivial
  hin c := inG (scopedRest1_split c)
  hout c := by rw [ownSems0_none]; exact outG (scopedRest1_split c)
  hexit c := exitG (unscopedBufs_of_arrays (p := 1) (pcfgs (F := F)) adm launch1.win launch1.arr_whole c (pdats m ρ)
    ((pdats m ρ 1 c).share_full fun _ => rfl) (V4 m ρ c) (fun b => W5 m ρ c b) _ (fun w => (W5_arr m ρ c w).symm) (wa_rest spec1 c _ _))

def reg2 : RS m ρ 2 where
  win := launch2.win.to₀
  block_pos := launch2.block_pos
  stage_whole := launch2.stage_whole
  K := PEmpty
  osem k := k.elim
  ho := OwnSemFacts.none _
  hbody c := (body_obligation2 (V6 m ρ) c).loose
  hwaits := hwaits_of_owed_zero _ _ _ _ L lv 2 fun _ _ => rfl
  pre := St (W6 m ρ)
  post := St (W7 m ρ)
  X c := iprop(∃ r, prngReg c r)
  Y c := iprop(∃ r, prngReg c r)
  Z c := unscopedRest spec2 c (V6 m ρ c)
  hentry c := entryG (arrays_of_unscopedBufs (p := 2) (pcfgs (F := F)) adm (pdats m ρ) launch2.win launch2.arr_whole c
    ((pdats m ρ 2 c).share_full fun _ => rfl) (V6 m ρ c) fun _ => rfl) .rfl fun _ => Or.inl trivial
  hin c := by
    rw [show (pdats m ρ 2 c).Φ 0 = ΦA spec2 c from rfl]; unfold ΦA
    iintro ⟨Hp, -, Hr⟩
    isplitl [Hr]; · iexact Hr
    iexact Hp
  hout c := by
    rw [ownSems0_none, show (pdats m ρ 2 c).Φ (Fin.last _) = ΦA spec2 c from rfl]; unfold ΦA
    iintro ⟨Hr, Hp⟩
    isplitl [Hp]; · iexact Hp
    isplitr; · iempintro
    iexact Hr
  hexit c := exitG (unscopedBufs_of_arrays (p := 2) (pcfgs (F := F)) adm launch2.win launch2.arr_whole c (pdats m ρ)
    ((pdats m ρ 2 c).share_full fun _ => rfl) (V6 m ρ c) (fun b => W7 m ρ c b) _ (fun w => (W7_arr m ρ c w).symm) (wa_rest spec2 c _ _))

abbrev segs : List (Seg (pcfgs (F := F)) adm (pdats m ρ) () defs₀ .none L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)),
    .region (reg2 m ρ),
    .host (hseg hostOps3 hostOps3_sub hostOps3_fresh (W7 m ρ)) ]

theorem run : θ_run defs (onTc (τ := τ) (main (F := F))) ⟨m, fun _ => 0, ρ⟩ (fun r => ∀ c : Dev nD,
      ∀ b ∈ ucRefs τ sig, r.2.mem (((c : Thread nD τ)).1, b) = W8 m ρ c b) :=
  θ_run_regions_kit (pcfgs (F := F)) adm (pdats m ρ) () cellOf_inj emb₁ defs₀ .none L lv m ρ main (segs m ρ)
    (fun c Q => by
      rewrite [main_chain c, Seg.run_eq_chain,
        show (segs m ρ).map Seg.prog = [
          StableHlo.seq hostOps0,
          StableHlo.seq hostOps0_1,
          StableHlo.seq hostOps0_2,
          Prog.lift (.customCall (entry 0) ()),
          Prog.lift (.customCall (entry 1) ()),
          StableHlo.seq hostOps2,
          Prog.lift (.customCall (entry 2) ()),
          StableHlo.seq hostOps3 ] from rfl]
      exact .rfl)
    (by simp only [segs, Seg.pipes_host, Seg.pipes_region, Seg.pipes_nil]; decide)
    (O₀ := 0) (hL := fun _ _ => rfl) (G := fun _ => iprop(emp))
    (u₀ := initOf (cells cfgs cellOf_inj) (launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := St (W0 m ρ))
    (Tₙ := fun c => iprop(StableHlo.held (c : Thread nD τ) (ucRefs τ sig) (W8 m ρ c) ∗ ∃ r, prngReg c r))
    (hch := ⟨fun _ => .rfl, fun _ => .rfl, fun _ => .rfl, fun _ => .rfl, fun _ => .rfl, fun _ => .rfl, fun _ => .rfl, fun _ => .rfl,
      fun _ => sep_assoc'⟩)
    (hinit := by
      refine initEach L lv fun c => ?_
      rw [show unscopedBufs c (fun b => m ((c : Thread nD τ).loc b)) = _ from unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all _ (fun b => (((c : Thread nD τ)).1, b)) _ s')
      isplitl [Hh] <;> iassumption)
    (hQ := fun _ h => h)

abbrev mainArgs : List (Ref sig .tc) := [main_arg0, main_arg1, main_arg2, main_arg3, main_arg4, main_arg5, main_arg6, main_arg7, main_arg8, main_arg9, main_arg10, main_arg11, main_arg12, main_arg13, main_arg14]

section Keep
variable (c : Dev nD) (b : Ref sig .tc)

theorem W2_of (r : Ref sig .tc) (h : r ∉ hostOps0_1_W) : W2 m ρ c r = W1 m ρ c r :=
  StableHlo.after_of_writes_sub hostOps0_1 _ hostOps0_1_writes h
theorem W3_of (r : Ref sig .tc) (h : r ∉ hostOps0_2_W) : W3 m ρ c r = W2 m ρ c r :=
  StableHlo.after_of_writes_sub hostOps0_2 _ hostOps0_2_writes h
theorem W6_of (r : Ref sig .tc) (h : r ∉ hostOps2_W) : W6 m ρ c r = W5 m ρ c r :=
  StableHlo.after_of_writes_sub hostOps2 _ hostOps2_writes h

theorem W4_keep (hb : b ≠ main_v51) : W4 m ρ c b = W3 m ρ c b := by
  by_cases h : ∃ w, arrRef spec0 w = b
  · obtain ⟨w, rfl⟩ := h
    exact (W4_arr m ρ c w).trans ((dat0 (V3 m ρ) c).arrAt_in w (by revert w; decide) _)
  · exact withArrays_of_ne spec0 c _ _ b fun w e => h ⟨w, e⟩
theorem W5_keep (hb : b ≠ main_v52) : W5 m ρ c b = W4 m ρ c b := by
  by_cases h : ∃ w, arrRef spec1 w = b
  · obtain ⟨w, rfl⟩ := h
    exact (W5_arr m ρ c w).trans ((dat1 (V4 m ρ) c).arrAt_in w (by revert w; decide) _)
  · exact withArrays_of_ne spec1 c _ _ b fun w e => h ⟨w, e⟩
theorem W7_keep (hb : b ≠ main_v57_0 ∧ b ≠ main_v57_1) : W7 m ρ c b = W6 m ρ c b := by
  by_cases h : ∃ w, arrRef spec2 w = b
  · obtain ⟨w, rfl⟩ := h
    exact (W7_arr m ρ c w).trans ((dat2 (V6 m ρ) c).arrAt_in w (by revert w; decide) _)
  · exact withArrays_of_ne spec2 c _ _ b fun w e => h ⟨w, e⟩

variable (hb : b ∈ mainArgs)
include hb

theorem W2_arg : W2 m ρ c b = m ((c : Thread nD τ).loc b) :=
  (W2_of m ρ c b (by revert b; decide)).trans
    (StableHlo.after_of_writes_sub hostOps0 _ hostOps0_writes (by revert b; decide))
theorem W3_arg : W3 m ρ c b = m ((c : Thread nD τ).loc b) :=
  (W3_of m ρ c b (by revert b; decide)).trans (W2_arg m ρ c b hb)
theorem W4_arg : W4 m ρ c b = m ((c : Thread nD τ).loc b) :=
  (W4_keep m ρ c b (by revert b; decide)).trans (W3_arg m ρ c b hb)
theorem W5_arg : W5 m ρ c b = m ((c : Thread nD τ).loc b) :=
  (W5_keep m ρ c b (by revert b; decide)).trans (W4_arg m ρ c b hb)
theorem W6_arg : W6 m ρ c b = m ((c : Thread nD τ).loc b) :=
  (W6_of m ρ c b (by revert b; decide)).trans (W5_arg m ρ c b hb)
theorem W8_arg : W8 m ρ c b = m ((c : Thread nD τ).loc b) :=
  (StableHlo.after_of_writes_sub hostOps3 _ hostOps3_writes (by revert b; decide)).trans
    ((W7_keep m ρ c b (by revert b; decide)).trans (W6_arg m ρ c b hb))

end Keep

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    have k : ∀ b ∈ mainArgs, r.2.mem ((c.tc : Thread nD τ).loc b) = m ((c.tc : Thread nD τ).loc b) := fun b hb =>
      (h c _ (mem_uc b (by revert b; decide))).trans (W8_arg m ρ c b hb)
    simpa only [mainArgs, ↓List.forall_mem_singleton, List.forall_mem_cons] using k) (run m ρ)

end Cert.Kernel.Hand

end
-- ==== Proof.KArgs.lean ====
import proofs.«419566_j52175262711930_3_alg».proof.Proof.Gen.KernelIdeal.Launch
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

def obsK (c : Dev nD) (a : Fin 10000) (i : Fin 30) : EReal := m ((c : Thread nD τ).loc main_arg0) (ix2 a i)

def actK (c : Dev nD) (a : Fin 10000) (i : Fin 4) : EReal := m ((c : Thread nD τ).loc main_arg1) (ix2 a i)

def w1K (c : Dev nD) (i : Fin 34) (f : Fin 128) : EReal := m ((c : Thread nD τ).loc main_arg3) (ix2 i f)

def b1K (c : Dev nD) (f : Fin 128) : EReal := m ((c : Thread nD τ).loc main_arg4) (ix1 f)

def w2K (c : Dev nD) (i : Fin 128) (f : Fin 128) : EReal := m ((c : Thread nD τ).loc main_arg5) (ix2 i f)

def b2K (c : Dev nD) (f : Fin 128) : EReal := m ((c : Thread nD τ).loc main_arg6) (ix1 f)

def waK (c : Dev nD) (j : Fin 128) (k : Fin 128) : EReal := m ((c : Thread nD τ).loc main_arg7) (ix2 j k)

def baK (c : Dev nD) (k : Fin 128) : EReal := m ((c : Thread nD τ).loc main_arg8) (ix1 k)

def wbK (c : Dev nD) (k : Fin 128) : EReal := m ((c : Thread nD τ).loc main_arg9) (ix2 k (0 : Fin 1))

def bbK (c : Dev nD) : EReal := m ((c : Thread nD τ).loc main_arg10) (ix1 (0 : Fin 1))

def wa2K (c : Dev nD) (j : Fin 128) (k : Fin 128) : EReal := m ((c : Thread nD τ).loc main_arg11) (ix2 j k)

def ba2K (c : Dev nD) (k : Fin 128) : EReal := m ((c : Thread nD τ).loc main_arg12) (ix1 k)

def wb2K (c : Dev nD) (k : Fin 128) : EReal := m ((c : Thread nD τ).loc main_arg13) (ix2 k (0 : Fin 1))

def bb2K (c : Dev nD) : EReal := m ((c : Thread nD τ).loc main_arg14) (ix1 (0 : Fin 1))

end Cert.KernelIdeal.Hand

end
-- ==== Proof.RefReadP.lean ====
import proofs.«419566_j52175262711930_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S10000x30, .f32⟩ : BufTy).Contents (Elt F))
  (x1 : (⟨S10000x4, .f32⟩ : BufTy).Contents (Elt F))
  (x2 : (⟨S2x320000, .i32⟩ : BufTy).Contents (Elt F))
  (x3 : (⟨S34x128, .f32⟩ : BufTy).Contents (Elt F))
  (x4 : (⟨S128, .f32⟩ : BufTy).Contents (Elt F))
  (x5 : (⟨S128x128, .f32⟩ : BufTy).Contents (Elt F))
  (x6 : (⟨S128, .f32⟩ : BufTy).Contents (Elt F))
  (x7 : (⟨S128x128, .f32⟩ : BufTy).Contents (Elt F))
  (x8 : (⟨S128, .f32⟩ : BufTy).Contents (Elt F))
  (x9 : (⟨S128x1, .f32⟩ : BufTy).Contents (Elt F))
  (x10 : (⟨S1, .f32⟩ : BufTy).Contents (Elt F))
  (x11 : (⟨S128x128, .f32⟩ : BufTy).Contents (Elt F))
  (x12 : (⟨S128, .f32⟩ : BufTy).Contents (Elt F))
  (x13 : (⟨S128x1, .f32⟩ : BufTy).Contents (Elt F))
  (x14 : (⟨S1, .f32⟩ : BufTy).Contents (Elt F))

def val_main_v0 : (⟨S10000, .i32⟩ : BufTy).Contents (Elt F) :=
  iotaInDim S10000 32 0
def val_main_v1 : (⟨S1x320000, .i32⟩ : BufTy).Contents (Elt F) :=
  extractStridedSlice S1x320000 ![0, 0] (x2) slices_S2x320000_S1x320000_0_0
abbrev idx_main_v1 (i : S1x320000.Idx) : S2x320000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v1_apply (i : S1x320000.Idx) :
    val_main_v1 (F := F) x2 i = x2 (idx_main_v1 i) := by
  unfold val_main_v1
  exact extractStridedSlice_apply ![0, 0] x2 slices_S2x320000_S1x320000_0_0 i (idx_main_v1 i) (fun a => match a with
    | ⟨0, _⟩ => by show (i 0).val = 0 + (i 0).val; omega
    | ⟨1, _⟩ => by show (i 1).val = 0 + (i 1).val; omega)
def val_main_v2 : (⟨S320000, .i32⟩ : BufTy).Contents (Elt F) :=
  shapeCast _ (val_main_v1 (F := F) x2) shapeCasts_S1x320000_S320000
abbrev idx_main_v2 (i : S320000.Idx) : S1x320000.Idx := fun a => match a with
  | ⟨0, _⟩ => ⟨0, Nat.one_pos⟩
  | ⟨1, _⟩ => ⟨((i 0).val) % 320000, by have h0 : (i 0).val < 320000 := (i 0).isLt; show ((i 0).val) % 320000 < 320000; omega⟩
theorem val_main_v2_apply (i : S320000.Idx) :
    val_main_v2 (F := F) x2 i = val_main_v1 (F := F) x2 (idx_main_v2 i) := by
  unfold val_main_v2
  generalize val_main_v1 (F := F) x2 = y
  exact shapeCast_apply y shapeCasts_S1x320000_S320000 i (idx_main_v2 i)
    (by rewrite [Shape.rowMajor_val_two, Shape.rowMajor_val_one]; have h0 : (i 0).val < 320000 := (i 0).isLt; show 0 * 320000 + ((i 0).val) % 320000 = (i 0).val; omega)
def val_main_v3 : (⟨S330000, .i32⟩ : BufTy).Contents (Elt F) :=
  concatenate S330000 0 [⟨S320000, (val_main_v2 (F := F) x2)⟩, ⟨S10000, (val_main_v0 (F := F))⟩] concatenates_S320000_S10000_S330000_d0
def val_main_v4 : (⟨S1x320000, .i32⟩ : BufTy).Contents (Elt F) :=
  extractStridedSlice S1x320000 ![1, 0] (x2) slices_S2x320000_S1x320000_1_0
abbrev idx_main_v4 (i : S1x320000.Idx) : S2x320000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v4_apply (i : S1x320000.Idx) :
    val_main_v4 (F := F) x2 i = x2 (idx_main_v4 i) := by
  unfold val_main_v4
  exact extractStridedSlice_apply ![1, 0] x2 slices_S2x320000_S1x320000_1_0 i (idx_main_v4 i) (fun a => match a with
    | ⟨0, _⟩ => by show 1 + (i 0).val = 1 + (i 0).val; omega
    | ⟨1, _⟩ => by show (i 1).val = 0 + (i 1).val; omega)
def val_main_v5 : (⟨S320000, .i32⟩ : BufTy).Contents (Elt F) :=
  shapeCast _ (val_main_v4 (F := F) x2) shapeCasts_S1x320000_S320000
abbrev idx_main_v5 (i : S320000.Idx) : S1x320000.Idx := fun a => match a with
  | ⟨0, _⟩ => ⟨0, Nat.one_pos⟩
  | ⟨1, _⟩ => ⟨((i 0).val) % 320000, by have h0 : (i 0).val < 320000 := (i 0).isLt; show ((i 0).val) % 320000 < 320000; omega⟩
theorem val_main_v5_apply (i : S320000.Idx) :
    val_main_v5 (F := F) x2 i = val_main_v4 (F := F) x2 (idx_main_v5 i) := by
  unfold val_main_v5
  generalize val_main_v4 (F := F) x2 = y
  exact shapeCast_apply y shapeCasts_S1x320000_S320000 i (idx_main_v5 i)
    (by rewrite [Shape.rowMajor_val_two, Shape.rowMajor_val_one]; have h0 : (i 0).val < 320000 := (i 0).isLt; show 0 * 320000 + ((i 0).val) % 320000 = (i 0).val; omega)
def val_main_v6 : (⟨S330000, .i32⟩ : BufTy).Contents (Elt F) :=
  concatenate S330000 0 [⟨S320000, (val_main_v5 (F := F) x2)⟩, ⟨S10000, (val_main_v0 (F := F))⟩] concatenates_S320000_S10000_S330000_d0
def val_main_cst : (⟨S_, .f32⟩ : BufTy).Contents (Elt F) :=
  constant S_ .f32 0x00000000#32
def val_main_v7 : (⟨S10000, .f32⟩ : BufTy).Contents (Elt F) :=
  broadcastInDim S10000 ![] bcast_S_S10000 (val_main_cst (F := F))
def val_main_c : (⟨S_, .i32⟩ : BufTy).Contents (Elt F) :=
  constantI S_ 32 0#32
def val_main_v8 : (⟨S330000, .i32⟩ : BufTy).Contents (Elt F) :=
  broadcastInDim S330000 ![] bcast_S_S330000 (val_main_c (F := F))
def val_main_v9 : (⟨S330000, .i1⟩ : BufTy).Contents (Elt F) :=
  cmpi .slt (val_main_v6 (F := F) x2) (val_main_v8 (F := F))
def val_main_c_0 : (⟨S_, .i32⟩ : BufTy).Contents (Elt F) :=
  constantI S_ 32 10000#32
def val_main_v10 : (⟨S330000, .i32⟩ : BufTy).Contents (Elt F) :=
  broadcastInDim S330000 ![] bcast_S_S330000 (val_main_c_0 (F := F))
def val_main_v11 : (⟨S330000, .i32⟩ : BufTy).Contents (Elt F) :=
  addi (val_main_v6 (F := F) x2) (val_main_v10 (F := F))
def val_main_v12 : (⟨S330000, .i32⟩ : BufTy).Contents (Elt F) :=
  select (val_main_v9 (F := F) x2) (val_main_v11 (F := F) x2) (val_main_v6 (F := F) x2)
def val_main_v13 : (⟨S330000x1, .i32⟩ : BufTy).Contents (Elt F) :=
  broadcastInDim S330000x1 ![0] bcast_S330000_S330000x1_0 (val_main_v12 (F := F) x2)
def val_main_cst_1 : (⟨S_, .f32⟩ : BufTy).Contents (Elt F) :=
  constant S_ .f32 0x3F800000#32
def val_main_v14 : (⟨S330000, .f32⟩ : BufTy).Contents (Elt F) :=
  broadcastInDim S330000 ![] bcast_S_S330000 (val_main_cst_1 (F := F))
def val_main_v15 : (⟨S10000, .f32⟩ : BufTy).Contents (Elt F) :=
  Host.scatterAdd scatter_S10000_S330000x1_S330000_n_0_0_1 (val_main_v7 (F := F)) (val_main_v13 (F := F) x2) (val_main_v14 (F := F))
def val_main_cst_2 : (⟨S_, .f32⟩ : BufTy).Contents (Elt F) :=
  constant S_ .f32 0x00000000#32
def val_main_v16 : (⟨S10000, .f32⟩ : BufTy).Contents (Elt F) :=
  broadcastInDim S10000 ![] bcast_S_S10000 (val_main_cst_2 (F := F))
def val_main_v17 : (⟨S10000, .i1⟩ : BufTy).Contents (Elt F) :=
  cmpf (F := F) .ogt (val_main_v15 (F := F) x2) (val_main_v16 (F := F))
def val_main_cst_3 : (⟨S_, .f32⟩ : BufTy).Contents (Elt F) :=
  constant S_ .f32 0x3F800000#32
def val_main_v18 : (⟨S10000, .f32⟩ : BufTy).Contents (Elt F) :=
  broadcastInDim S10000 ![] bcast_S_S10000 (val_main_cst_3 (F := F))
def val_main_v19 : (⟨S10000, .f32⟩ : BufTy).Contents (Elt F) :=
  maximumf (val_main_v15 (F := F) x2) (val_main_v18 (F := F))
def val_main_v20 : (⟨S10000, .f32⟩ : BufTy).Contents (Elt F) :=
  Host.rsqrt (val_main_v19 (F := F) x2)
def val_main_cst_4 : (⟨S_, .f32⟩ : BufTy).Contents (Elt F) :=
  constant S_ .f32 0x00000000#32
def val_main_call0_v0 : (⟨S_, .f32⟩ : BufTy).Contents (Elt F) :=
  id (val_main_cst_4 (F := F))
def val_main_call0_v1 : (⟨S10000, .f32⟩ : BufTy).Contents (Elt F) :=
  broadcastInDim S10000 ![] bcast_S_S10000 (val_main_call0_v0 (F := F))
def val_main_v21 : (⟨S10000, .f32⟩ : BufTy).Contents (Elt F) :=
  select (val_main_v17 (F := F) x2) (val_main_v20 (F := F) x2) (val_main_call0_v1 (F := F))
def val_main_v22 : (⟨S10000x34, .f32⟩ : BufTy).Contents (Elt F) :=
  concatenate S10000x34 1 [⟨S10000x30, (x0)⟩, ⟨S10000x4, (x1)⟩] concatenates_S10000x30_S10000x4_S10000x34_d1
def val_main_v23 : (⟨S10000x128, .f32⟩ : BufTy).Contents (Elt F) :=
  Host.dotGeneral dot_S10000x34_S34x128_S10000x128_1_0_0_1_n_n none (val_main_v22 (F := F) x0 x1) (x3)
def val_main_c_5 : (⟨S_, .i32⟩ : BufTy).Contents (Elt F) :=
  constantI S_ 32 0#32
def val_main_v24 : (⟨S330000, .i32⟩ : BufTy).Contents (Elt F) :=
  broadcastInDim S330000 ![] bcast_S_S330000 (val_main_c_5 (F := F))
def val_main_v25 : (⟨S330000, .i1⟩ : BufTy).Contents (Elt F) :=
  cmpi .slt (val_main_v3 (F := F) x2) (val_main_v24 (F := F))
def val_main_c_6 : (⟨S_, .i32⟩ : BufTy).Contents (Elt F) :=
  constantI S_ 32 10000#32
def val_main_v26 : (⟨S330000, .i32⟩ : BufTy).Contents (Elt F) :=
  broadcastInDim S330000 ![] bcast_S_S330000 (val_main_c_6 (F := F))
def val_main_v27 : (⟨S330000, .i32⟩ : BufTy).Contents (Elt F) :=
  addi (val_main_v3 (F := F) x2) (val_main_v26 (F := F))
def val_main_v28 : (⟨S330000, .i32⟩ : BufTy).Contents (Elt F) :=
  select (val_main_v25 (F := F) x2) (val_main_v27 (F := F) x2) (val_main_v3 (F := F) x2)
def val_main_v29 : (⟨S330000x1, .i32⟩ : BufTy).Contents (Elt F) :=
  broadcastInDim S330000x1 ![0] bcast_S330000_S330000x1_0 (val_main_v28 (F := F) x2)
def val_main_v30 : (⟨S330000, .f32⟩ : BufTy).Contents (Elt F) :=
  Host.gather gather_S10000_S330000x1_S330000_n_0_n_n_0_1_1 (val_main_v21 (F := F) x2) (val_main_v29 (F := F) x2)
def val_main_c_7 : (⟨S_, .i32⟩ : BufTy).Contents (Elt F) :=
  constantI S_ 32 0#32
def val_main_v31 : (⟨S330000, .i32⟩ : BufTy).Contents (Elt F) :=
  broadcastInDim S330000 ![] bcast_S_S330000 (val_main_c_7 (F := F))
def val_main_v32 : (⟨S330000, .i1⟩ : BufTy).Contents (Elt F) :=
  cmpi .slt (val_main_v6 (F := F) x2) (val_main_v31 (F := F))
def val_main_c_8 : (⟨S_, .i32⟩ : BufTy).Contents (Elt F) :=
  constantI S_ 32 10000#32
def val_main_v33 : (⟨S330000, .i32⟩ : BufTy).Contents (Elt F) :=
  broadcastInDim S330000 ![] bcast_S_S330000 (val_main_c_8 (F := F))
def val_main_v34 : (⟨S330000, .i32⟩ : BufTy).Contents (Elt F) :=
  addi (val_main_v6 (F := F) x2) (val_main_v33 (F := F))
def val_main_v35 : (⟨S330000, .i32⟩ : BufTy).Contents (Elt F) :=
  select (val_main_v32 (F := F) x2) (val_main_v34 (F := F) x2) (val_main_v6 (F := F) x2)
def val_main_v36 : (⟨S330000x1, .i32⟩ : BufTy).Contents (Elt F) :=
  broadcastInDim S330000x1 ![0] bcast_S330000_S330000x1_0 (val_main_v35 (F := F) x2)
def val_main_v37 : (⟨S330000, .f32⟩ : BufTy).Contents (Elt F) :=
  Host.gather gather_S10000_S330000x1_S330000_n_0_n_n_0_1_1 (val_main_v21 (F := F) x2) (val_main_v36 (F := F) x2)
def val_main_v38 : (⟨S330000, .f32⟩ : BufTy).Contents (Elt F) :=
  mulf (val_main_v30 (F := F) x2) (val_main_v37 (F := F) x2)
def val_main_c_9 : (⟨S_, .i32⟩ : BufTy).Contents (Elt F) :=
  constantI S_ 32 0#32
def val_main_v39 : (⟨S330000, .i32⟩ : BufTy).Contents (Elt F) :=
  broadcastInDim S330000 ![] bcast_S_S330000 (val_main_c_9 (F := F))
def val_main_v40 : (⟨S330000, .i1⟩ : BufTy).Contents (Elt F) :=
  cmpi .slt (val_main_v3 (F := F) x2) (val_main_v39 (F := F))
theorem val_main_v40_apply (i : S330000.Idx) :
    val_main_v40 (F := F) x2 i = IntOp.cmpi .slt (val_main_v3 (F := F) x2 i) (val_main_v39 (F := F) i) := rfl
def val_main_c_10 : (⟨S_, .i32⟩ : BufTy).Contents (Elt F) :=
  constantI S_ 32 10000#32
def val_main_v41 : (⟨S330000, .i32⟩ : BufTy).Contents (Elt F) :=
  broadcastInDim S330000 ![] bcast_S_S330000 (val_main_c_10 (F := F))
def val_main_v42 : (⟨S330000, .i32⟩ : BufTy).Contents (Elt F) :=
  addi (val_main_v3 (F := F) x2) (val_main_v41 (F := F))
theorem val_main_v42_apply (i : S330000.Idx) :
    val_main_v42 (F := F) x2 i = IntOp.addi (val_main_v3 (F := F) x2 i) (val_main_v41 (F := F) i) := rfl
def val_main_v43 : (⟨S330000, .i32⟩ : BufTy).Contents (Elt F) :=
  select (val_main_v40 (F := F) x2) (val_main_v42 (F := F) x2) (val_main_v3 (F := F) x2)
theorem val_main_v43_apply (i : S330000.Idx) :
    val_main_v43 (F := F) x2 i = Scalar.select (val_main_v40 (F := F) x2 i) (val_main_v42 (F := F) x2 i) (val_main_v3 (F := F) x2 i) := rfl
def val_main_v44 : (⟨S330000x1, .i32⟩ : BufTy).Contents (Elt F) :=
  broadcastInDim S330000x1 ![0] bcast_S330000_S330000x1_0 (val_main_v43 (F := F) x2)
abbrev idx_main_v44 (i : S330000x1.Idx) : S330000.Idx := fun a => match a with
  | ⟨0, _⟩ => ⟨(i 0).val, (i 0).isLt⟩
theorem val_main_v44_apply (i : S330000x1.Idx) :
    val_main_v44 (F := F) x2 i = val_main_v43 (F := F) x2 (idx_main_v44 i) := by
  unfold val_main_v44
  generalize val_main_v43 (F := F) x2 = y
  exact broadcastInDim_apply _ bcast_S330000_S330000x1_0 y i (idx_main_v44 i) (fun a => match a with
    | ⟨0, _⟩ => by show (i 0).val = if (330000 : Nat) = 1 then 0 else (i 0).val; rw [if_neg (by decide)])
def val_main_v45 : (⟨S330000x128, .f32⟩ : BufTy).Contents (Elt F) :=
  Host.gather gather_S10000x128_S330000x1_S330000x128_1_0_n_n_0_1_1128 (val_main_v23 (F := F) x0 x1 x3) (val_main_v44 (F := F) x2)
def val_main_v46 : (⟨S330000x1, .f32⟩ : BufTy).Contents (Elt F) :=
  broadcastInDim S330000x1 ![0] bcast_S330000_S330000x1_0 (val_main_v38 (F := F) x2)
abbrev idx_main_v46 (i : S330000x1.Idx) : S330000.Idx := fun a => match a with
  | ⟨0, _⟩ => ⟨(i 0).val, (i 0).isLt⟩
theorem val_main_v46_apply (i : S330000x1.Idx) :
    val_main_v46 (F := F) x2 i = val_main_v38 (F := F) x2 (idx_main_v46 i) := by
  unfold val_main_v46
  generalize val_main_v38 (F := F) x2 = y
  exact broadcastInDim_apply _ bcast_S330000_S330000x1_0 y i (idx_main_v46 i) (fun a => match a with
    | ⟨0, _⟩ => by show (i 0).val = if (330000 : Nat) = 1 then 0 else (i 0).val; rw [if_neg (by decide)])
def val_main_v47 : (⟨S330000x128, .f32⟩ : BufTy).Contents (Elt F) :=
  broadcastInDim S330000x128 ![0, 1] bcast_S330000x1_S330000x128_0_1 (val_main_v46 (F := F) x2)
abbrev idx_main_v47 (i : S330000x128.Idx) : S330000x1.Idx := fun a => match a with
  | ⟨0, _⟩ => ⟨(i 0).val, (i 0).isLt⟩
  | ⟨1, _⟩ => ⟨0, Nat.one_pos⟩
theorem val_main_v47_apply (i : S330000x128.Idx) :
    val_main_v47 (F := F) x2 i = val_main_v46 (F := F) x2 (idx_main_v47 i) := by
  unfold val_main_v47
  generalize val_main_v46 (F := F) x2 = y
  exact broadcastInDim_apply _ bcast_S330000x1_S330000x128_0_1 y i (idx_main_v47 i) (fun a => match a with
    | ⟨0, _⟩ => by show (i 0).val = if (330000 : Nat) = 1 then 0 else (i 0).val; rw [if_neg (by decide)]
    | ⟨1, _⟩ => by show 0 = if (1 : Nat) = 1 then 0 else (i 1).val; rw [if_pos rfl])
def val_main_v48 : (⟨S330000x128, .f32⟩ : BufTy).Contents (Elt F) :=
  mulf (val_main_v45 (F := F) x0 x1 x2 x3) (val_main_v47 (F := F) x2)
def val_main_cst_11 : (⟨S_, .f32⟩ : BufTy).Contents (Elt F) :=
  constant S_ .f32 0x00000000#32
def val_main_v49 : (⟨S10000x128, .f32⟩ : BufTy).Contents (Elt F) :=
  broadcastInDim S10000x128 ![] bcast_S_S10000x128 (val_main_cst_11 (F := F))
def val_main_v50 : (⟨S330000x1, .i32⟩ : BufTy).Contents (Elt F) :=
  broadcastInDim S330000x1 ![0] bcast_S330000_S330000x1_0 (val_main_v6 (F := F) x2)
abbrev idx_main_v50 (i : S330000x1.Idx) : S330000.Idx := fun a => match a with
  | ⟨0, _⟩ => ⟨(i 0).val, (i 0).isLt⟩
theorem val_main_v50_apply (i : S330000x1.Idx) :
    val_main_v50 (F := F) x2 i = val_main_v6 (F := F) x2 (idx_main_v50 i) := by
  unfold val_main_v50
  generalize val_main_v6 (F := F) x2 = y
  exact broadcastInDim_apply _ bcast_S330000_S330000x1_0 y i (idx_main_v50 i) (fun a => match a with
    | ⟨0, _⟩ => by show (i 0).val = if (330000 : Nat) = 1 then 0 else (i 0).val; rw [if_neg (by decide)])
def val_main_v51 : (⟨S10000x128, .f32⟩ : BufTy).Contents (Elt F) :=
  Host.scatterAdd scatter_S10000x128_S330000x1_S330000x128_1_0_0_1 (val_main_v49 (F := F)) (val_main_v50 (F := F) x2) (val_main_v48 (F := F) x0 x1 x2 x3)
def val_main_v52 : (⟨S1x128, .f32⟩ : BufTy).Contents (Elt F) :=
  broadcastInDim S1x128 ![1] bcast_S128_S1x128_1 (x4)
abbrev idx_main_v52 (i : S1x128.Idx) : S128.Idx := fun a => match a with
  | ⟨0, _⟩ => ⟨(i 1).val, (i 1).isLt⟩
theorem val_main_v52_apply (i : S1x128.Idx) :
    val_main_v52 (F := F) x4 i = x4 (idx_main_v52 i) := by
  unfold val_main_v52
  exact broadcastInDim_apply _ bcast_S128_S1x128_1 x4 i (idx_main_v52 i) (fun a => match a with
    | ⟨0, _⟩ => by show (i 1).val = if (128 : Nat) = 1 then 0 else (i 1).val; rw [if_neg (by decide)])
def val_main_v53 : (⟨S10000x128, .f32⟩ : BufTy).Contents (Elt F) :=
  broadcastInDim S10000x128 ![0, 1] bcast_S1x128_S10000x128_0_1 (val_main_v52 (F := F) x4)
abbrev idx_main_v53 (i : S10000x128.Idx) : S1x128.Idx := fun a => match a with
  | ⟨0, _⟩ => ⟨0, Nat.one_pos⟩
  | ⟨1, _⟩ => ⟨(i 1).val, (i 1).isLt⟩
theorem val_main_v53_apply (i : S10000x128.Idx) :
    val_main_v53 (F := F) x4 i = val_main_v52 (F := F) x4 (idx_main_v53 i) := by
  unfold val_main_v53
  generalize val_main_v52 (F := F) x4 = y
  exact broadcastInDim_apply _ bcast_S1x128_S10000x128_0_1 y i (idx_main_v53 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v54 : (⟨S10000x128, .f32⟩ : BufTy).Contents (Elt F) :=
  addf (val_main_v51 (F := F) x0 x1 x2 x3) (val_main_v53 (F := F) x4)
def val_main_call1_cst : (⟨S_, .f32⟩ : BufTy).Contents (Elt F) :=
  constant S_ .f32 0x00000000#32
def val_main_call1_v0 : (⟨S10000x128, .f32⟩ : BufTy).Contents (Elt F) :=
  broadcastInDim S10000x128 ![] bcast_S_S10000x128 (val_main_call1_cst (F := F))
def val_main_v55 : (⟨S10000x128, .f32⟩ : BufTy).Contents (Elt F) :=
  maximumf (val_main_v54 (F := F) x0 x1 x2 x3 x4) (val_main_call1_v0 (F := F))
def val_main_v56 : (⟨S10000x128, .f32⟩ : BufTy).Contents (Elt F) :=
  Host.dotGeneral dot_S10000x128_S128x128_S10000x128_1_0_0_1_n_n none (val_main_v55 (F := F) x0 x1 x2 x3 x4) (x5)
def val_main_c_12 : (⟨S_, .i32⟩ : BufTy).Contents (Elt F) :=
  constantI S_ 32 0#32
def val_main_v57 : (⟨S330000, .i32⟩ : BufTy).Contents (Elt F) :=
  broadcastInDim S330000 ![] bcast_S_S330000 (val_main_c_12 (F := F))
def val_main_v58 : (⟨S330000, .i1⟩ : BufTy).Contents (Elt F) :=
  cmpi .slt (val_main_v3 (F := F) x2) (val_main_v57 (F := F))
def val_main_c_13 : (⟨S_, .i32⟩ : BufTy).Contents (Elt F) :=
  constantI S_ 32 10000#32
def val_main_v59 : (⟨S330000, .i32⟩ : BufTy).Contents (Elt F) :=
  broadcastInDim S330000 ![] bcast_S_S330000 (val_main_c_13 (F := F))
def val_main_v60 : (⟨S330000, .i32⟩ : BufTy).Contents (Elt F) :=
  addi (val_main_v3 (F := F) x2) (val_main_v59 (F := F))
def val_main_v61 : (⟨S330000, .i32⟩ : BufTy).Contents (Elt F) :=
  select (val_main_v58 (F := F) x2) (val_main_v60 (F := F) x2) (val_main_v3 (F := F) x2)
def val_main_v62 : (⟨S330000x1, .i32⟩ : BufTy).Contents (Elt F) :=
  broadcastInDim S330000x1 ![0] bcast_S330000_S330000x1_0 (val_main_v61 (F := F) x2)
def val_main_v63 : (⟨S330000, .f32⟩ : BufTy).Contents (Elt F) :=
  Host.gather gather_S10000_S330000x1_S330000_n_0_n_n_0_1_1 (val_main_v21 (F := F) x2) (val_main_v62 (F := F) x2)
def val_main_c_14 : (⟨S_, .i32⟩ : BufTy).Contents (Elt F) :=
  constantI S_ 32 0#32
def val_main_v64 : (⟨S330000, .i32⟩ : BufTy).Contents (Elt F) :=
  broadcastInDim S330000 ![] bcast_S_S330000 (val_main_c_14 (F := F))
def val_main_v65 : (⟨S330000, .i1⟩ : BufTy).Contents (Elt F) :=
  cmpi .slt (val_main_v6 (F := F) x2) (val_main_v64 (F := F))
def val_main_c_15 : (⟨S_, .i32⟩ : BufTy).Contents (Elt F) :=
  constantI S_ 32 10000#32
def val_main_v66 : (⟨S330000, .i32⟩ : BufTy).Contents (Elt F) :=
  broadcastInDim S330000 ![] bcast_S_S330000 (val_main_c_15 (F := F))
def val_main_v67 : (⟨S330000, .i32⟩ : BufTy).Contents (Elt F) :=
  addi (val_main_v6 (F := F) x2) (val_main_v66 (F := F))
def val_main_v68 : (⟨S330000, .i32⟩ : BufTy).Contents (Elt F) :=
  select (val_main_v65 (F := F) x2) (val_main_v67 (F := F) x2) (val_main_v6 (F := F) x2)
def val_main_v69 : (⟨S330000x1, .i32⟩ : BufTy).Contents (Elt F) :=
  broadcastInDim S330000x1 ![0] bcast_S330000_S330000x1_0 (val_main_v68 (F := F) x2)
def val_main_v70 : (⟨S330000, .f32⟩ : BufTy).Contents (Elt F) :=
  Host.gather gather_S10000_S330000x1_S330000_n_0_n_n_0_1_1 (val_main_v21 (F := F) x2) (val_main_v69 (F := F) x2)
def val_main_v71 : (⟨S330000, .f32⟩ : BufTy).Contents (Elt F) :=
  mulf (val_main_v63 (F := F) x2) (val_main_v70 (F := F) x2)
def val_main_c_16 : (⟨S_, .i32⟩ : BufTy).Contents (Elt F) :=
  constantI S_ 32 0#32
def val_main_v72 : (⟨S330000, .i32⟩ : BufTy).Contents (Elt F) :=
  broadcastInDim S330000 ![] bcast_S_S330000 (val_main_c_16 (F := F))
def val_main_v73 : (⟨S330000, .i1⟩ : BufTy).Contents (Elt F) :=
  cmpi .slt (val_main_v3 (F := F) x2) (val_main_v72 (F := F))
def val_main_c_17 : (⟨S_, .i32⟩ : BufTy).Contents (Elt F) :=
  constantI S_ 32 10000#32
def val_main_v74 : (⟨S330000, .i32⟩ : BufTy).Contents (Elt F) :=
  broadcastInDim S330000 ![] bcast_S_S330000 (val_main_c_17 (F := F))
def val_main_v75 : (⟨S330000, .i32⟩ : BufTy).Contents (Elt F) :=
  addi (val_main_v3 (F := F) x2) (val_main_v74 (F := F))
def val_main_v76 : (⟨S330000, .i32⟩ : BufTy).Contents (Elt F) :=
  select (val_main_v73 (F := F) x2) (val_main_v75 (F := F) x2) (val_main_v3 (F := F) x2)
def val_main_v77 : (⟨S330000x1, .i32⟩ : BufTy).Contents (Elt F) :=
  broadcastInDim S330000x1 ![0] bcast_S330000_S330000x1_0 (val_main_v76 (F := F) x2)
def val_main_v78 : (⟨S330000x128, .f32⟩ : BufTy).Contents (Elt F) :=
  Host.gather gather_S10000x128_S330000x1_S330000x128_1_0_n_n_0_1_1128 (val_main_v56 (F := F) x0 x1 x2 x3 x4 x5) (val_main_v77 (F := F) x2)
def val_main_v79 : (⟨S330000x1, .f32⟩ : BufTy).Contents (Elt F) :=
  broadcastInDim S330000x1 ![0] bcast_S330000_S330000x1_0 (val_main_v71 (F := F) x2)
def val_main_v80 : (⟨S330000x128, .f32⟩ : BufTy).Contents (Elt F) :=
  broadcastInDim S330000x128 ![0, 1] bcast_S330000x1_S330000x128_0_1 (val_main_v79 (F := F) x2)
def val_main_v81 : (⟨S330000x128, .f32⟩ : BufTy).Contents (Elt F) :=
  mulf (val_main_v78 (F := F) x0 x1 x2 x3 x4 x5) (val_main_v80 (F := F) x2)
def val_main_cst_18 : (⟨S_, .f32⟩ : BufTy).Contents (Elt F) :=
  constant S_ .f32 0x00000000#32
def val_main_v82 : (⟨S10000x128, .f32⟩ : BufTy).Contents (Elt F) :=
  broadcastInDim S10000x128 ![] bcast_S_S10000x128 (val_main_cst_18 (F := F))
def val_main_v83 : (⟨S330000x1, .i32⟩ : BufTy).Contents (Elt F) :=
  broadcastInDim S330000x1 ![0] bcast_S330000_S330000x1_0 (val_main_v6 (F := F) x2)
def val_main_v84 : (⟨S10000x128, .f32⟩ : BufTy).Contents (Elt F) :=
  Host.scatterAdd scatter_S10000x128_S330000x1_S330000x128_1_0_0_1 (val_main_v82 (F := F)) (val_main_v83 (F := F) x2) (val_main_v81 (F := F) x0 x1 x2 x3 x4 x5)
def val_main_v85 : (⟨S1x128, .f32⟩ : BufTy).Contents (Elt F) :=
  broadcastInDim S1x128 ![1] bcast_S128_S1x128_1 (x6)
def val_main_v86 : (⟨S10000x128, .f32⟩ : BufTy).Contents (Elt F) :=
  broadcastInDim S10000x128 ![0, 1] bcast_S1x128_S10000x128_0_1 (val_main_v85 (F := F) x6)
def val_main_v87 : (⟨S10000x128, .f32⟩ : BufTy).Contents (Elt F) :=
  addf (val_main_v84 (F := F) x0 x1 x2 x3 x4 x5) (val_main_v86 (F := F) x6)
def val_main_call2_cst : (⟨S_, .f32⟩ : BufTy).Contents (Elt F) :=
  constant S_ .f32 0x00000000#32
def val_main_call2_v0 : (⟨S10000x128, .f32⟩ : BufTy).Contents (Elt F) :=
  broadcastInDim S10000x128 ![] bcast_S_S10000x128 (val_main_call2_cst (F := F))
def val_main_v88 : (⟨S10000x128, .f32⟩ : BufTy).Contents (Elt F) :=
  maximumf (val_main_v87 (F := F) x0 x1 x2 x3 x4 x5 x6) (val_main_call2_v0 (F := F))
def val_main_v89 : (⟨S10000x128, .f32⟩ : BufTy).Contents (Elt F) :=
  Host.dotGeneral dot_S10000x128_S128x128_S10000x128_1_0_0_1_n_n none (val_main_v88 (F := F) x0 x1 x2 x3 x4 x5 x6) (x7)
def val_main_v90 : (⟨S1x128, .f32⟩ : BufTy).Contents (Elt F) :=
  broadcastInDim S1x128 ![1] bcast_S128_S1x128_1 (x8)
def val_main_v91 : (⟨S10000x128, .f32⟩ : BufTy).Contents (Elt F) :=
  broadcastInDim S10000x128 ![0, 1] bcast_S1x128_S10000x128_0_1 (val_main_v90 (F := F) x8)
def val_main_v92 : (⟨S10000x128, .f32⟩ : BufTy).Contents (Elt F) :=
  addf (val_main_v89 (F := F) x0 x1 x2 x3 x4 x5 x6 x7) (val_main_v91 (F := F) x8)
def val_main_call3_cst : (⟨S_, .f32⟩ : BufTy).Contents (Elt F) :=
  constant S_ .f32 0x00000000#32
def val_main_call3_v0 : (⟨S10000x128, .f32⟩ : BufTy).Contents (Elt F) :=
  broadcastInDim S10000x128 ![] bcast_S_S10000x128 (val_main_call3_cst (F := F))
def val_main_v93 : (⟨S10000x128, .f32⟩ : BufTy).Contents (Elt F) :=
  maximumf (val_main_v92 (F := F) x0 x1 x2 x3 x4 x5 x6 x7 x8) (val_main_call3_v0 (F := F))
def val_main_v94 : (⟨S10000x1, .f32⟩ : BufTy).Contents (Elt F) :=
  Host.dotGeneral dot_S10000x128_S128x1_S10000x1_1_0_0_1_n_n none (val_main_v93 (F := F) x0 x1 x2 x3 x4 x5 x6 x7 x8) (x9)
def val_main_v95 : (⟨S1x1, .f32⟩ : BufTy).Contents (Elt F) :=
  broadcastInDim S1x1 ![1] bcast_S1_S1x1_1 (x10)
abbrev idx_main_v95 (i : S1x1.Idx) : S1.Idx := fun a => match a with
  | ⟨0, _⟩ => ⟨0, Nat.one_pos⟩
theorem val_main_v95_apply (i : S1x1.Idx) :
    val_main_v95 (F := F) x10 i = x10 (idx_main_v95 i) := by
  unfold val_main_v95
  exact broadcastInDim_apply _ bcast_S1_S1x1_1 x10 i (idx_main_v95 i) (fun a => match a with
    | ⟨0, _⟩ => by show 0 = if (1 : Nat) = 1 then 0 else (i 1).val; rw [if_pos rfl])
def val_main_v96 : (⟨S10000x1, .f32⟩ : BufTy).Contents (Elt F) :=
  broadcastInDim S10000x1 ![0, 1] bcast_S1x1_S10000x1_0_1 (val_main_v95 (F := F) x10)
abbrev idx_main_v96 (i : S10000x1.Idx) : S1x1.Idx := fun a => match a with
  | ⟨0, _⟩ => ⟨0, Nat.one_pos⟩
  | ⟨1, _⟩ => ⟨0, Nat.one_pos⟩
theorem val_main_v96_apply (i : S10000x1.Idx) :
    val_main_v96 (F := F) x10 i = val_main_v95 (F := F) x10 (idx_main_v96 i) := by
  unfold val_main_v96
  generalize val_main_v95 (F := F) x10 = y
  exact broadcastInDim_apply _ bcast_S1x1_S10000x1_0_1 y i (idx_main_v96 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])
def val_main_v97 : (⟨S10000x1, .f32⟩ : BufTy).Contents (Elt F) :=
  addf (val_main_v94 (F := F) x0 x1 x2 x3 x4 x5 x6 x7 x8 x9) (val_main_v96 (F := F) x10)
def val_main_v98 : (⟨S10000x128, .f32⟩ : BufTy).Contents (Elt F) :=
  Host.dotGeneral dot_S10000x128_S128x128_S10000x128_1_0_0_1_n_n none (val_main_v88 (F := F) x0 x1 x2 x3 x4 x5 x6) (x11)
def val_main_v99 : (⟨S1x128, .f32⟩ : BufTy).Contents (Elt F) :=
  broadcastInDim S1x128 ![1] bcast_S128_S1x128_1 (x12)
def val_main_v100 : (⟨S10000x128, .f32⟩ : BufTy).Contents (Elt F) :=
  broadcastInDim S10000x128 ![0, 1] bcast_S1x128_S10000x128_0_1 (val_main_v99 (F := F) x12)
def val_main_v101 : (⟨S10000x128, .f32⟩ : BufTy).Contents (Elt F) :=
  addf (val_main_v98 (F := F) x0 x1 x2 x3 x4 x5 x6 x11) (val_main_v100 (F := F) x12)
def val_main_call4_cst : (⟨S_, .f32⟩ : BufTy).Contents (Elt F) :=
  constant S_ .f32 0x00000000#32
def val_main_call4_v0 : (⟨S10000x128, .f32⟩ : BufTy).Contents (Elt F) :=
  broadcastInDim S10000x128 ![] bcast_S_S10000x128 (val_main_call4_cst (F := F))
def val_main_v102 : (⟨S10000x128, .f32⟩ : BufTy).Contents (Elt F) :=
  maximumf (val_main_v101 (F := F) x0 x1 x2 x3 x4 x5 x6 x11 x12) (val_main_call4_v0 (F := F))
def val_main_v103 : (⟨S10000x1, .f32⟩ : BufTy).Contents (Elt F) :=
  Host.dotGeneral dot_S10000x128_S128x1_S10000x1_1_0_0_1_n_n none (val_main_v102 (F := F) x0 x1 x2 x3 x4 x5 x6 x11 x12) (x13)
def val_main_v104 : (⟨S1x1, .f32⟩ : BufTy).Contents (Elt F) :=
  broadcastInDim S1x1 ![1] bcast_S1_S1x1_1 (x14)
def val_main_v105 : (⟨S10000x1, .f32⟩ : BufTy).Contents (Elt F) :=
  broadcastInDim S10000x1 ![0, 1] bcast_S1x1_S10000x1_0_1 (val_main_v104 (F := F) x14)
def val_main_v106 : (⟨S10000x1, .f32⟩ : BufTy).Contents (Elt F) :=
  addf (val_main_v103 (F := F) x0 x1 x2 x3 x4 x5 x6 x11 x12 x13) (val_main_v105 (F := F) x14)
end Cert.ReferenceIdeal.ReadP

end
-- ==== Proof.RefRunP.lean ====
import proofs.«419566_j52175262711930_3_alg».proof.Proof.Gen.ReferenceIdeal
import proofs.«419566_j52175262711930_3_alg».proof.Proof.RefReadP
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ nullary main_v0 (iotaInDim S10000 32 0),
    unary main_arg2 main_v1 ((extractStridedSlice S1x320000 ![0, 0] · slices_S2x320000_S1x320000_0_0) : (⟨S2x320000, .i32⟩ : BufTy).Contents (Elt F) → (⟨S1x320000, .i32⟩ : BufTy).Contents (Elt F)),
    reshape main_v1 main_v2 rfl shapeCasts_S1x320000_S320000,
    binary main_v2 main_v0 main_v3 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    unary main_arg2 main_v4 ((extractStridedSlice S1x320000 ![1, 0] · slices_S2x320000_S1x320000_1_0) : (⟨S2x320000, .i32⟩ : BufTy).Contents (Elt F) → (⟨S1x320000, .i32⟩ : BufTy).Contents (Elt F)),
    reshape main_v4 main_v5 rfl shapeCasts_S1x320000_S320000,
    binary main_v5 main_v0 main_v6 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    nullary main_cst (constant S_ .f32 0x00000000#32),
    unary main_cst main_v7 (broadcastInDim S10000 ![] bcast_S_S10000 : (⟨S_, .f32⟩ : BufTy).Contents (Elt F) → (⟨S10000, .f32⟩ : BufTy).Contents (Elt F)),
    nullary main_c (constantI S_ 32 0#32),
    unary main_c main_v8 (broadcastInDim S330000 ![] bcast_S_S330000 : (⟨S_, .i32⟩ : BufTy).Contents (Elt F) → (⟨S330000, .i32⟩ : BufTy).Contents (Elt F)),
    binary main_v6 main_v8 main_v9 (cmpi .slt : (⟨S330000, .i32⟩ : BufTy).Contents (Elt F) → (⟨S330000, .i32⟩ : BufTy).Contents (Elt F) → (⟨S330000, .i1⟩ : BufTy).Contents (Elt F)),
    nullary main_c_0 (constantI S_ 32 10000#32),
    unary main_c_0 main_v10 (broadcastInDim S330000 ![] bcast_S_S330000 : (⟨S_, .i32⟩ : BufTy).Contents (Elt F) → (⟨S330000, .i32⟩ : BufTy).Contents (Elt F)),
    binary main_v6 main_v10 main_v11 (addi : (⟨S330000, .i32⟩ : BufTy).Contents (Elt F) → (⟨S330000, .i32⟩ : BufTy).Contents (Elt F) → (⟨S330000, .i32⟩ : BufTy).Contents (Elt F)),
    ternary main_v9 main_v11 main_v6 main_v12 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v12 main_v13 (broadcastInDim S330000x1 ![0] bcast_S330000_S330000x1_0 : (⟨S330000, .i32⟩ : BufTy).Contents (Elt F) → (⟨S330000x1, .i32⟩ : BufTy).Contents (Elt F)),
    nullary main_cst_1 (constant S_ .f32 0x3F800000#32),
    unary main_cst_1 main_v14 (broadcastInDim S330000 ![] bcast_S_S330000 : (⟨S_, .f32⟩ : BufTy).Contents (Elt F) → (⟨S330000, .f32⟩ : BufTy).Contents (Elt F)),
    ternary main_v7 main_v13 main_v14 main_v15 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_2 (constant S_ .f32 0x00000000#32),
    unary main_cst_2 main_v16 (broadcastInDim S10000 ![] bcast_S_S10000 : (⟨S_, .f32⟩ : BufTy).Contents (Elt F) → (⟨S10000, .f32⟩ : BufTy).Contents (Elt F)),
    binary main_v15 main_v16 main_v17 (cmpf (F := F) .ogt : (⟨S10000, .f32⟩ : BufTy).Contents (Elt F) → (⟨S10000, .f32⟩ : BufTy).Contents (Elt F) → (⟨S10000, .i1⟩ : BufTy).Contents (Elt F)),
    nullary main_cst_3 (constant S_ .f32 0x3F800000#32),
    unary main_cst_3 main_v18 (broadcastInDim S10000 ![] bcast_S_S10000 : (⟨S_, .f32⟩ : BufTy).Contents (Elt F) → (⟨S10000, .f32⟩ : BufTy).Contents (Elt F)),
    binary main_v15 main_v18 main_v19 (maximumf : (⟨S10000, .f32⟩ : BufTy).Contents (Elt F) → (⟨S10000, .f32⟩ : BufTy).Contents (Elt F) → (⟨S10000, .f32⟩ : BufTy).Contents (Elt F)),
    unary main_v19 main_v20 (Host.rsqrt : (⟨S10000, .f32⟩ : BufTy).Contents (Elt F) → (⟨S10000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v17) (TRef.of (T := ⟨S10000, .f32⟩) main_v20) (TRef.of (T := ⟨S10000, .f32⟩) main_call0_v1) (TRef.of (T := ⟨S10000, .f32⟩) main_v21) select,
    binary main_arg0 main_arg1 main_v22 ((fun a b => concatenate S10000x34 1 [⟨S10000x30, a⟩, ⟨S10000x4, b⟩] concatenates_S10000x30_S10000x4_S10000x34_d1) : (⟨S10000x30, .f32⟩ : BufTy).Contents (Elt F) → (⟨S10000x4, .f32⟩ : BufTy).Contents (Elt F) → (⟨S10000x34, .f32⟩ : BufTy).Contents (Elt F)),
    binary main_v22 main_arg3 main_v23 ((fun l r => Host.dotGeneral dot_S10000x34_S34x128_S10000x128_1_0_0_1_n_n none l r) : (⟨S10000x34, .f32⟩ : BufTy).Contents (Elt F) → (⟨S34x128, .f32⟩ : BufTy).Contents (Elt F) → (⟨S10000x128, .f32⟩ : BufTy).Contents (Elt F)),
    nullary main_c_5 (constantI S_ 32 0#32),
    unary main_c_5 main_v24 (broadcastInDim S330000 ![] bcast_S_S330000 : (⟨S_, .i32⟩ : BufTy).Contents (Elt F) → (⟨S330000, .i32⟩ : BufTy).Contents (Elt F)),
    binary main_v3 main_v24 main_v25 (cmpi .slt : (⟨S330000, .i32⟩ : BufTy).Contents (Elt F) → (⟨S330000, .i32⟩ : BufTy).Contents (Elt F) → (⟨S330000, .i1⟩ : BufTy).Contents (Elt F)),
    nullary main_c_6 (constantI S_ 32 10000#32),
    unary main_c_6 main_v26 (broadcastInDim S330000 ![] bcast_S_S330000 : (⟨S_, .i32⟩ : BufTy).Contents (Elt F) → (⟨S330000, .i32⟩ : BufTy).Contents (Elt F)),
    binary main_v3 main_v26 main_v27 (addi : (⟨S330000, .i32⟩ : BufTy).Contents (Elt F) → (⟨S330000, .i32⟩ : BufTy).Contents (Elt F) → (⟨S330000, .i32⟩ : BufTy).Contents (Elt F)),
    ternary main_v25 main_v27 main_v3 main_v28 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v28 main_v29 (broadcastInDim S330000x1 ![0] bcast_S330000_S330000x1_0 : (⟨S330000, .i32⟩ : BufTy).Contents (Elt F) → (⟨S330000x1, .i32⟩ : BufTy).Contents (Elt F)),
    binary main_v21 main_v29 main_v30 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_7 (constantI S_ 32 0#32),
    unary main_c_7 main_v31 (broadcastInDim S330000 ![] bcast_S_S330000 : (⟨S_, .i32⟩ : BufTy).Contents (Elt F) → (⟨S330000, .i32⟩ : BufTy).Contents (Elt F)),
    binary main_v6 main_v31 main_v32 (cmpi .slt : (⟨S330000, .i32⟩ : BufTy).Contents (Elt F) → (⟨S330000, .i32⟩ : BufTy).Contents (Elt F) → (⟨S330000, .i1⟩ : BufTy).Contents (Elt F)),
    nullary main_c_8 (constantI S_ 32 10000#32),
    unary main_c_8 main_v33 (broadcastInDim S330000 ![] bcast_S_S330000 : (⟨S_, .i32⟩ : BufTy).Contents (Elt F) → (⟨S330000, .i32⟩ : BufTy).Contents (Elt F)),
    binary main_v6 main_v33 main_v34 (addi : (⟨S330000, .i32⟩ : BufTy).Contents (Elt F) → (⟨S330000, .i32⟩ : BufTy).Contents (Elt F) → (⟨S330000, .i32⟩ : BufTy).Contents (Elt F)),
    ternary main_v32 main_v34 main_v6 main_v35 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v35 main_v36 (broadcastInDim S330000x1 ![0] bcast_S330000_S330000x1_0 : (⟨S330000, .i32⟩ : BufTy).Contents (Elt F) → (⟨S330000x1, .i32⟩ : BufTy).Contents (Elt F)),
    binary main_v21 main_v36 main_v37 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v30 main_v37 main_v38 (mulf : (⟨S330000, .f32⟩ : BufTy).Contents (Elt F) → (⟨S330000, .f32⟩ : BufTy).Contents (Elt F) → (⟨S330000, .f32⟩ : BufTy).Contents (Elt F)),
    nullary main_c_9 (constantI S_ 32 0#32),
    unary main_c_9 main_v39 (broadcastInDim S330000 ![] bcast_S_S330000 : (⟨S_, .i32⟩ : BufTy).Contents (Elt F) → (⟨S330000, .i32⟩ : BufTy).Contents (Elt F)),
    binary main_v3 main_v39 main_v40 (cmpi .slt : (⟨S330000, .i32⟩ : BufTy).Contents (Elt F) → (⟨S330000, .i32⟩ : BufTy).Contents (Elt F) → (⟨S330000, .i1⟩ : BufTy).Contents (Elt F)),
    nullary main_c_10 (constantI S_ 32 10000#32),
    unary main_c_10 main_v41 (broadcastInDim S330000 ![] bcast_S_S330000 : (⟨S_, .i32⟩ : BufTy).Contents (Elt F) → (⟨S330000, .i32⟩ : BufTy).Contents (Elt F)),
    binary main_v3 main_v41 main_v42 (addi : (⟨S330000, .i32⟩ : BufTy).Contents (Elt F) → (⟨S330000, .i32⟩ : BufTy).Contents (Elt F) → (⟨S330000, .i32⟩ : BufTy).Contents (Elt F)),
    ternary main_v40 main_v42 main_v3 main_v43 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v43 main_v44 (broadcastInDim S330000x1 ![0] bcast_S330000_S330000x1_0 : (⟨S330000, .i32⟩ : BufTy).Contents (Elt F) → (⟨S330000x1, .i32⟩ : BufTy).Contents (Elt F)),
    binary main_v23 main_v44 main_v45 ((fun x i => Host.gather gather_S10000x128_S330000x1_S330000x128_1_0_n_n_0_1_1128 x i) : (⟨S10000x128, .f32⟩ : BufTy).Contents (Elt F) → (⟨S330000x1, .i32⟩ : BufTy).Contents (Elt F) → (⟨S330000x128, .f32⟩ : BufTy).Contents (Elt F)),
    unary main_v38 main_v46 (broadcastInDim S330000x1 ![0] bcast_S330000_S330000x1_0 : (⟨S330000, .f32⟩ : BufTy).Contents (Elt F) → (⟨S330000x1, .f32⟩ : BufTy).Contents (Elt F)),
    unary main_v46 main_v47 (broadcastInDim S330000x128 ![0, 1] bcast_S330000x1_S330000x128_0_1 : (⟨S330000x1, .f32⟩ : BufTy).Contents (Elt F) → (⟨S330000x128, .f32⟩ : BufTy).Contents (Elt F)),
    binary main_v45 main_v47 main_v48 (mulf : (⟨S330000x128, .f32⟩ : BufTy).Contents (Elt F) → (⟨S330000x128, .f32⟩ : BufTy).Contents (Elt F) → (⟨S330000x128, .f32⟩ : BufTy).Contents (Elt F)),
    nullary main_cst_11 (constant S_ .f32 0x00000000#32),
    unary main_cst_11 main_v49 (broadcastInDim S10000x128 ![] bcast_S_S10000x128 : (⟨S_, .f32⟩ : BufTy).Contents (Elt F) → (⟨S10000x128, .f32⟩ : BufTy).Contents (Elt F)),
    unary main_v6 main_v50 (broadcastInDim S330000x1 ![0] bcast_S330000_S330000x1_0 : (⟨S330000, .i32⟩ : BufTy).Contents (Elt F) → (⟨S330000x1, .i32⟩ : BufTy).Contents (Elt F)),
    ternary main_v49 main_v50 main_v48 main_v51 ((fun x i u => Host.scatterAdd scatter_S10000x128_S330000x1_S330000x128_1_0_0_1 x i u) : (⟨S10000x128, .f32⟩ : BufTy).Contents (Elt F) → (⟨S330000x1, .i32⟩ : BufTy).Contents (Elt F) → (⟨S330000x128, .f32⟩ : BufTy).Contents (Elt F) → (⟨S10000x128, .f32⟩ : BufTy).Contents (Elt F)),
    unary main_arg4 main_v52 (broadcastInDim S1x128 ![1] bcast_S128_S1x128_1 : (⟨S128, .f32⟩ : BufTy).Contents (Elt F) → (⟨S1x128, .f32⟩ : BufTy).Contents (Elt F)),
    unary main_v52 main_v53 (broadcastInDim S10000x128 ![0, 1] bcast_S1x128_S10000x128_0_1 : (⟨S1x128, .f32⟩ : BufTy).Contents (Elt F) → (⟨S10000x128, .f32⟩ : BufTy).Contents (Elt F)),
    binary main_v51 main_v53 main_v54 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x128, .f32⟩) main_call1_v0) (broadcastInDim S10000x128 ![] bcast_S_S10000x128),
    TRef.binary (TRef.of (T := ⟨S10000x128, .f32⟩) main_v54) (TRef.of (T := ⟨S10000x128, .f32⟩) main_call1_v0) (TRef.of (T := ⟨S10000x128, .f32⟩) main_v55) maximumf,
    binary main_v55 main_arg5 main_v56 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    nullary main_c_12 (constantI S_ 32 0#32),
    unary main_c_12 main_v57 (broadcastInDim S330000 ![] bcast_S_S330000 : (⟨S_, .i32⟩ : BufTy).Contents (Elt F) → (⟨S330000, .i32⟩ : BufTy).Contents (Elt F)),
    binary main_v3 main_v57 main_v58 (cmpi .slt : (⟨S330000, .i32⟩ : BufTy).Contents (Elt F) → (⟨S330000, .i32⟩ : BufTy).Contents (Elt F) → (⟨S330000, .i1⟩ : BufTy).Contents (Elt F)),
    nullary main_c_13 (constantI S_ 32 10000#32),
    unary main_c_13 main_v59 (broadcastInDim S330000 ![] bcast_S_S330000 : (⟨S_, .i32⟩ : BufTy).Contents (Elt F) → (⟨S330000, .i32⟩ : BufTy).Contents (Elt F)),
    binary main_v3 main_v59 main_v60 (addi : (⟨S330000, .i32⟩ : BufTy).Contents (Elt F) → (⟨S330000, .i32⟩ : BufTy).Contents (Elt F) → (⟨S330000, .i32⟩ : BufTy).Contents (Elt F)),
    ternary main_v58 main_v60 main_v3 main_v61 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v61 main_v62 (broadcastInDim S330000x1 ![0] bcast_S330000_S330000x1_0 : (⟨S330000, .i32⟩ : BufTy).Contents (Elt F) → (⟨S330000x1, .i32⟩ : BufTy).Contents (Elt F)),
    binary main_v21 main_v62 main_v63 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_14 (constantI S_ 32 0#32),
    unary main_c_14 main_v64 (broadcastInDim S330000 ![] bcast_S_S330000 : (⟨S_, .i32⟩ : BufTy).Contents (Elt F) → (⟨S330000, .i32⟩ : BufTy).Contents (Elt F)),
    binary main_v6 main_v64 main_v65 (cmpi .slt : (⟨S330000, .i32⟩ : BufTy).Contents (Elt F) → (⟨S330000, .i32⟩ : BufTy).Contents (Elt F) → (⟨S330000, .i1⟩ : BufTy).Contents (Elt F)),
    nullary main_c_15 (constantI S_ 32 10000#32),
    unary main_c_15 main_v66 (broadcastInDim S330000 ![] bcast_S_S330000 : (⟨S_, .i32⟩ : BufTy).Contents (Elt F) → (⟨S330000, .i32⟩ : BufTy).Contents (Elt F)),
    binary main_v6 main_v66 main_v67 (addi : (⟨S330000, .i32⟩ : BufTy).Contents (Elt F) → (⟨S330000, .i32⟩ : BufTy).Contents (Elt F) → (⟨S330000, .i32⟩ : BufTy).Contents (Elt F)),
    ternary main_v65 main_v67 main_v6 main_v68 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v68 main_v69 (broadcastInDim S330000x1 ![0] bcast_S330000_S330000x1_0 : (⟨S330000, .i32⟩ : BufTy).Contents (Elt F) → (⟨S330000x1, .i32⟩ : BufTy).Contents (Elt F)),
    binary main_v21 main_v69 main_v70 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v63 main_v70 main_v71 (mulf : (⟨S330000, .f32⟩ : BufTy).Contents (Elt F) → (⟨S330000, .f32⟩ : BufTy).Contents (Elt F) → (⟨S330000, .f32⟩ : BufTy).Contents (Elt F)),
    nullary main_c_16 (constantI S_ 32 0#32),
    unary main_c_16 main_v72 (broadcastInDim S330000 ![] bcast_S_S330000 : (⟨S_, .i32⟩ : BufTy).Contents (Elt F) → (⟨S330000, .i32⟩ : BufTy).Contents (Elt F)),
    binary main_v3 main_v72 main_v73 (cmpi .slt : (⟨S330000, .i32⟩ : BufTy).Contents (Elt F) → (⟨S330000, .i32⟩ : BufTy).Contents (Elt F) → (⟨S330000, .i1⟩ : BufTy).Contents (Elt F)),
    nullary main_c_17 (constantI S_ 32 10000#32),
    unary main_c_17 main_v74 (broadcastInDim S330000 ![] bcast_S_S330000 : (⟨S_, .i32⟩ : BufTy).Contents (Elt F) → (⟨S330000, .i32⟩ : BufTy).Contents (Elt F)),
    binary main_v3 main_v74 main_v75 (addi : (⟨S330000, .i32⟩ : BufTy).Contents (Elt F) → (⟨S330000, .i32⟩ : BufTy).Contents (Elt F) → (⟨S330000, .i32⟩ : BufTy).Contents (Elt F)),
    ternary main_v73 main_v75 main_v3 main_v76 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v76 main_v77 (broadcastInDim S330000x1 ![0] bcast_S330000_S330000x1_0 : (⟨S330000, .i32⟩ : BufTy).Contents (Elt F) → (⟨S330000x1, .i32⟩ : BufTy).Contents (Elt F)),
    binary main_v56 main_v77 main_v78 ((fun x i => Host.gather gather_S10000x128_S330000x1_S330000x128_1_0_n_n_0_1_1128 x i) : (⟨S10000x128, .f32⟩ : BufTy).Contents (Elt F) → (⟨S330000x1, .i32⟩ : BufTy).Contents (Elt F) → (⟨S330000x128, .f32⟩ : BufTy).Contents (Elt F)),
    unary main_v71 main_v79 (broadcastInDim S330000x1 ![0] bcast_S330000_S330000x1_0 : (⟨S330000, .f32⟩ : BufTy).Contents (Elt F) → (⟨S330000x1, .f32⟩ : BufTy).Contents (Elt F)),
    unary main_v79 main_v80 (broadcastInDim S330000x128 ![0, 1] bcast_S330000x1_S330000x128_0_1 : (⟨S330000x1, .f32⟩ : BufTy).Contents (Elt F) → (⟨S330000x128, .f32⟩ : BufTy).Contents (Elt F)),
    binary main_v78 main_v80 main_v81 (mulf : (⟨S330000x128, .f32⟩ : BufTy).Contents (Elt F) → (⟨S330000x128, .f32⟩ : BufTy).Contents (Elt F) → (⟨S330000x128, .f32⟩ : BufTy).Contents (Elt F)),
    nullary main_cst_18 (constant S_ .f32 0x00000000#32),
    unary main_cst_18 main_v82 (broadcastInDim S10000x128 ![] bcast_S_S10000x128 : (⟨S_, .f32⟩ : BufTy).Contents (Elt F) → (⟨S10000x128, .f32⟩ : BufTy).Contents (Elt F)),
    unary main_v6 main_v83 (broadcastInDim S330000x1 ![0] bcast_S330000_S330000x1_0 : (⟨S330000, .i32⟩ : BufTy).Contents (Elt F) → (⟨S330000x1, .i32⟩ : BufTy).Contents (Elt F)),
    ternary main_v82 main_v83 main_v81 main_v84 ((fun x i u => Host.scatterAdd scatter_S10000x128_S330000x1_S330000x128_1_0_0_1 x i u) : (⟨S10000x128, .f32⟩ : BufTy).Contents (Elt F) → (⟨S330000x1, .i32⟩ : BufTy).Contents (Elt F) → (⟨S330000x128, .f32⟩ : BufTy).Contents (Elt F) → (⟨S10000x128, .f32⟩ : BufTy).Contents (Elt F)),
    unary main_arg6 main_v85 (broadcastInDim S1x128 ![1] bcast_S128_S1x128_1 : (⟨S128, .f32⟩ : BufTy).Contents (Elt F) → (⟨S1x128, .f32⟩ : BufTy).Contents (Elt F)),
    unary main_v85 main_v86 (broadcastInDim S10000x128 ![0, 1] bcast_S1x128_S10000x128_0_1 : (⟨S1x128, .f32⟩ : BufTy).Contents (Elt F) → (⟨S10000x128, .f32⟩ : BufTy).Contents (Elt F)),
    binary main_v84 main_v86 main_v87 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S10000x128, .f32⟩) main_call2_v0) (broadcastInDim S10000x128 ![] bcast_S_S10000x128),
    TRef.binary (TRef.of (T := ⟨S10000x128, .f32⟩) main_v87) (TRef.of (T := ⟨S10000x128, .f32⟩) main_call2_v0) (TRef.of (T := ⟨S10000x128, .f32⟩) main_v88) maximumf,
    binary main_v88 main_arg7 main_v89 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg8 main_v90 (broadcastInDim S1x128 ![1] bcast_S128_S1x128_1 : (⟨S128, .f32⟩ : BufTy).Contents (Elt F) → (⟨S1x128, .f32⟩ : BufTy).Contents (Elt F)),
    unary main_v90 main_v91 (broadcastInDim S10000x128 ![0, 1] bcast_S1x128_S10000x128_0_1 : (⟨S1x128, .f32⟩ : BufTy).Contents (Elt F) → (⟨S10000x128, .f32⟩ : BufTy).Contents (Elt F)),
    binary main_v89 main_v91 main_v92 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10000x128, .f32⟩) main_call3_v0) (broadcastInDim S10000x128 ![] bcast_S_S10000x128),
    TRef.binary (TRef.of (T := ⟨S10000x128, .f32⟩) main_v92) (TRef.of (T := ⟨S10000x128, .f32⟩) main_call3_v0) (TRef.of (T := ⟨S10000x128, .f32⟩) main_v93) maximumf,
    binary main_v93 main_arg9 main_v94 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_arg10 main_v95 (broadcastInDim S1x1 ![1] bcast_S1_S1x1_1 : (⟨S1, .f32⟩ : BufTy).Contents (Elt F) → (⟨S1x1, .f32⟩ : BufTy).Contents (Elt F)),
    unary main_v95 main_v96 (broadcastInDim S10000x1 ![0, 1] bcast_S1x1_S10000x1_0_1 : (⟨S1x1, .f32⟩ : BufTy).Contents (Elt F) → (⟨S10000x1, .f32⟩ : BufTy).Contents (Elt F)),
    binary main_v94 main_v96 main_v97 (addf : (⟨S10000x1, .f32⟩ : BufTy).Contents (Elt F) → (⟨S10000x1, .f32⟩ : BufTy).Contents (Elt F) → (⟨S10000x1, .f32⟩ : BufTy).Contents (Elt F)),
    binary main_v88 main_arg11 main_v98 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg12 main_v99 (broadcastInDim S1x128 ![1] bcast_S128_S1x128_1 : (⟨S128, .f32⟩ : BufTy).Contents (Elt F) → (⟨S1x128, .f32⟩ : BufTy).Contents (Elt F)),
    unary main_v99 main_v100 (broadcastInDim S10000x128 ![0, 1] bcast_S1x128_S10000x128_0_1 : (⟨S1x128, .f32⟩ : BufTy).Contents (Elt F) → (⟨S10000x128, .f32⟩ : BufTy).Contents (Elt F)),
    binary main_v98 main_v100 main_v101 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S10000x128, .f32⟩) main_call4_v0) (broadcastInDim S10000x128 ![] bcast_S_S10000x128),
    TRef.binary (TRef.of (T := ⟨S10000x128, .f32⟩) main_v101) (TRef.of (T := ⟨S10000x128, .f32⟩) main_call4_v0) (TRef.of (T := ⟨S10000x128, .f32⟩) main_v102) maximumf,
    binary main_v102 main_arg13 main_v103 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_arg14 main_v104 (broadcastInDim S1x1 ![1] bcast_S1_S1x1_1 : (⟨S1, .f32⟩ : BufTy).Contents (Elt F) → (⟨S1x1, .f32⟩ : BufTy).Contents (Elt F)),
    unary main_v104 main_v105 (broadcastInDim S10000x1 ![0, 1] bcast_S1x1_S10000x1_0_1 : (⟨S1x1, .f32⟩ : BufTy).Contents (Elt F) → (⟨S10000x1, .f32⟩ : BufTy).Contents (Elt F)),
    binary main_v103 main_v105 main_v106 (addf : (⟨S10000x1, .f32⟩ : BufTy).Contents (Elt F) → (⟨S10000x1, .f32⟩ : BufTy).Contents (Elt F) → (⟨S10000x1, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in

def res_main_v106 (m : (ℓ : Loc nD τ sig) → Buf (Elt F) ℓ) (c : Dev nD) : Buf (Elt F) ((c.tc : Thread nD τ).loc main_v106) :=
  ReadP.val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14))
set_option maxRecDepth 8192 in

def res_main_v97 (m : (ℓ : Loc nD τ sig) → Buf (Elt F) ℓ) (c : Dev nD) : Buf (Elt F) ((c.tc : Thread nD τ).loc main_v97) :=
  ReadP.val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
set_option maxRecDepth 8192 in
set_option maxHeartbeats 55200000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v97) = res_main_v97 m c
      ∧ r.2.mem ((c.tc : Thread nD τ).loc main_v106) = res_main_v106 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v97).trans (by after_results_simp <;> rfl <;> (unfold res_main_v97; rfl)),
      (h c main_v106).trans (by after_results_simp <;> rfl <;> (unfold res_main_v106; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl)⟩)
    (run_seq scopedRefs_eq scopedSems_eq defs main (fun _ => ops) main_eq (fun _ => ops_sub) m ρ)

end Cert.ReferenceIdeal.ValueP

end
-- ==== Proof.Spec.lean ====
import Mathlib.Data.EReal.Basic
import Mathlib.Algebra.BigOperators.Fin

noncomputable section

namespace Cert.Spec

def relu (x : EReal) : EReal := max x 0

def dense {N K M : ℕ} (x : Fin N → Fin K → EReal) (w : Fin K → Fin M → EReal) (n : Fin N) (f : Fin M) : EReal :=
  ∑ i : Fin K, x n i * w i f

def feat (obs : Fin 10000 → Fin 30 → EReal) (act : Fin 10000 → Fin 4 → EReal) (n : Fin 10000) (i : Fin 34) : EReal :=
  if h : i.val < 30 then obs n ⟨i.val, h⟩ else act n ⟨i.val - 30, by have := i.isLt; omega⟩

def conv (sN dN : Fin 330000 → Fin 10000) (nrm : Fin 330000 → EReal) (xw : Fin 10000 → Fin 128 → EReal)
    (b : Fin 128 → EReal) (n : Fin 10000) (f : Fin 128) : EReal :=
  relu ((∑ i ∈ Finset.univ.filter (fun i : Fin 330000 => dN i = n), xw (sN i) f * nrm i) + b f)

def head (x : Fin 10000 → Fin 128 → EReal) (wa : Fin 128 → Fin 128 → EReal) (ba : Fin 128 → EReal)
    (wb : Fin 128 → EReal) (bb : EReal) (n : Fin 10000) : EReal :=
  (∑ k : Fin 128, relu (dense x wa n k + ba k) * wb k) + bb

def layers (sN dN : Fin 330000 → Fin 10000) (nrm : Fin 330000 → EReal)
    (obs : Fin 10000 → Fin 30 → EReal) (act : Fin 10000 → Fin 4 → EReal)
    (w1 : Fin 34 → Fin 128 → EReal) (b1 : Fin 128 → EReal) (w2 : Fin 128 → Fin 128 → EReal) (b2 : Fin 128 → EReal) :
    Fin 10000 → Fin 128 → EReal :=
  conv sN dN nrm (dense (conv sN dN nrm (dense (feat obs act) w1) b1) w2) b2

end Cert.Spec

end
-- ==== Proof.LibScatterConst.lean ====
import Idealize.ShloMosaic.PureOps.ShapeOps

namespace Cert.LibScatterConst

open Idealize.ShloMosaic
/-- An update entry lands at i' exactly when, on every axis, its start plus its window offset is the coordinate of i'. -/
theorem resultIdx?_eq_some_iff {s si u : Shape} {w : Nat} (d : ScatterDims s si u) (j : u.Idx) (idx : IVec si w)
    (i' : s.Idx) :
    d.resultIdx? j idx = some i' ↔ ∀ a, d.start j idx a + (d.window j a : Int) = ((i' a).val : Int) := by
  unfold ScatterDims.resultIdx?
  split <;> rename_i h
  · refine ⟨fun e a => ?_, fun e => congrArg some (funext fun a => Fin.ext ?_)⟩
    · have e1 : (d.start j idx a + (d.window j a : Int)).toNat = (i' a).val :=
        congrArg Fin.val (congrFun (Option.some.inj e) a)
      have := h a
      omega
    · have := e a
      have := h a
      show (d.start j idx a + (d.window j a : Int)).toNat = (i' a).val
      omega
  · exact ⟨nofun, fun e => absurd (fun a => by have := e a; have := (i' a).isLt; omega) h⟩

end Cert.LibScatterConst
-- ==== Proof.LibScatterAdd.lean ====
import Idealize.ShloMosaic.PureOps.Ideal
import Idealize.ShloMosaic.Lib.ValueIdx
import proofs.«419566_j52175262711930_3_alg».proof.Proof.LibScatterConst

noncomputable section

namespace Cert.LibScatterAdd

open Idealize.ShloMosaic Idealize.ShloMosaic.ValueIdx
/-- Update row j lands on result row o exactly when its word is o; it keeps its column. -/
theorem rows_lands_iff {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1) (idx : IVec ⟨2, ![R, 1]⟩ 32) (j : (⟨2, ![R, T]⟩ : Shape).Idx) (o : Fin S) (t : Fin T) :
    d.resultIdx? j idx = some (ix2 o t) ↔ (idx (ix2 (j 0) (0 : Fin 1))).toInt = (o.val : ℤ) ∧ j 1 = t := by
  rw [Cert.LibScatterConst.resultIdx?_eq_some_iff, Fin.forall_fin_two]
  obtain ⟨uw, iw, sd, iv, wf⟩ := d
  dsimp only at huw hiw hsd hiv
  subst huw hiw hsd hiv
  refine and_congr ?_ ?_ <;> unfold ScatterDims.start ScatterDims.window
  · rw [dif_pos, dif_neg, Nat.cast_zero, add_zero]
    · refine Iff.of_eq (congrArg (· = _) (congrArg (fun z => (idx z).toInt) (funext fun b => Fin.ext ?_)))
      match b with
      | ⟨0, _⟩ => rfl
      | ⟨1, _⟩ => rfl
    all_goals simp [ScatterDims.sKept, Shape.kept]
  · rw [dif_neg, dif_pos, zero_add]
    · exact Nat.cast_inj.trans Fin.val_inj
    all_goals simp [ScatterDims.sKept, Shape.kept]

/-- A scatter-add of rows: entry (o, t) is the operand's plus the sum of the update rows whose word is o, at column t. -/
theorem scatterAdd_rows_apply {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1)
    (x : (⟨2, ![S, T]⟩ : Shape).Idx → EReal) (idx : IVec ⟨2, ![R, 1]⟩ 32) (upd : (⟨2, ![R, T]⟩ : Shape).Idx → EReal)
    (o : Fin S) (t : Fin T) :
    Ideal.hostScatterAdd d x idx upd (ix2 o t)
      = x (ix2 o t) + ∑ n ∈ Finset.univ.filter
          (fun n : Fin R => (idx (ix2 n (0 : Fin 1))).toInt = (o.val : ℤ)), upd (ix2 n t) := by
  unfold Ideal.hostScatterAdd
  congr 1
  rw [Finset.sum_filter, Finset.sum_filter, sum_idx2]
  refine Finset.sum_congr rfl fun n _ => ?_
  have L := rows_lands_iff d huw hiw hsd hiv idx
  by_cases hP : (idx (ix2 n (0 : Fin 1))).toInt = (o.val : ℤ)
  · rw [if_pos hP, Finset.sum_eq_single t]
    · exact if_pos ((L (ix2 n t) o t).mpr ⟨hP, rfl⟩)
    · exact fun b _ hb => if_neg fun h => hb ((L (ix2 n b) o t).mp h).2
    · exact fun h => absurd (Finset.mem_univ t) h
  · rw [if_neg hP]
    exact Finset.sum_eq_zero fun b _ => if_neg fun h => hP ((L (ix2 n b) o t).mp h).1

end Cert.LibScatterAdd

end
-- ==== Proof.LibHostIdx2.lean ====
import Idealize.ShloMosaic.PureOps
import Idealize.ShloMosaic.Lib.ValueIdx

namespace Idealize.ShloMosaic.HostIdx2

open Idealize.ShloMosaic Idealize.ShloMosaic.ValueIdx

/-- A word made from k below half its range reads back as the integer k. -/
theorem toInt_ofNat_of_lt {w k : Nat} (hk : 2 * k < 2 ^ w) : (BitVec.ofNat w k).toInt = (k : Int) := by
  rw [BitVec.toInt_eq_toNat_cond, BitVec.toNat_ofNat, Nat.mod_eq_of_lt (by omega), if_pos hk]

/-- A gather of whole rows by a column of row numbers: row r of the result is the table row its word names, clamped to the table. -/
theorem gather_rows_apply {α : Type} {N R C w : Nat} (hN : 0 < N)
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C])
    (x : (⟨2, ![N, C]⟩ : Shape).Idx → α) (idx : IVec ⟨2, ![R, 1]⟩ w) (r : Fin R) (q : Fin C) :
    Host.gather d x idx (ix2 r q)
      = x (ix2 ⟨min (idx (ix2 r (0 : Fin 1))).toInt.toNat (N - 1), by omega⟩ q) := by
  obtain ⟨od, cd, ob, sb, sim, iv, ss, wf⟩ := d
  dsimp only at hod hcd hob hsb hsim hiv hss
  subst hod hcd hob hsb hsim hiv hss
  unfold Host.gather
  congr 1
  funext a
  refine Fin.ext ?_
  show GatherDims.start _ (ix2 r q) idx a + GatherDims.batchCoord _ (ix2 r q) a
    + GatherDims.offCoord _ (ix2 r q) a = _
  unfold GatherDims.start GatherDims.batchCoord GatherDims.offCoord
  match a with
  | ⟨0, _⟩ =>
    rw [dif_pos, dif_neg, dif_neg]
    · exact congrArg (fun z => min (idx z).toInt.toNat _) (funext fun b => Fin.ext (match b with | ⟨0, _⟩ => rfl | ⟨1, _⟩ => rfl))
    all_goals simp [GatherDims.sKept, Shape.kept]
  | ⟨1, _⟩ =>
    rw [dif_neg, dif_neg, dif_pos, Nat.zero_add]
    · rfl
    all_goals simp [GatherDims.sKept, Shape.kept]

/-- If row r's word is k, below the table's height, the result's row r is the table's row k. -/
theorem gather_rows_apply_of_eq {α : Type} {N R C w : Nat}
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C]) (hNw : 2 * N ≤ 2 ^ w)
    (x : (⟨2, ![N, C]⟩ : Shape).Idx → α) (idx : IVec ⟨2, ![R, 1]⟩ w) (r : Fin R) (q : Fin C)
    (k : Nat) (hk : k < N) (hidx : idx (ix2 r (0 : Fin 1)) = BitVec.ofNat w k) :
    Host.gather d x idx (ix2 r q) = x (ix2 ⟨k, hk⟩ q) := by
  rw [gather_rows_apply (by omega) d hod hcd hob hsb hsim hiv hss]
  congr 2
  refine Fin.ext ?_
  show min (idx (ix2 r (0 : Fin 1))).toInt.toNat (N - 1) = k
  rw [hidx, toInt_ofNat_of_lt (by omega), Int.toNat_natCast]
  omega
end Idealize.ShloMosaic.HostIdx2
-- ==== Proof.RefVal.lean ====
import proofs.«419566_j52175262711930_3_alg».proof.Proof.RefReadP
import proofs.«419566_j52175262711930_3_alg».proof.Proof.Spec
import proofs.«419566_j52175262711930_3_alg».proof.Proof.LibScatterAdd
import proofs.«419566_j52175262711930_3_alg».proof.Proof.LibScatterConst
import proofs.«419566_j52175262711930_3_alg».proof.Proof.LibHostIdx2
import Idealize.ShloMosaic.Lib.StackMember

noncomputable section

namespace Cert.ReferenceIdeal.Hand

open Cert.ReferenceIdeal Cert.ReferenceIdeal.Gen Cert.ReferenceIdeal.ReadP Idealize.ShloMosaic Idealize.ShloMosaic.ValueIdx

theorem scatter_dst (dN : Fin 330000 → Fin 10000) (x : FVec Ideal S10000x128 .f32) (idx : IVec S330000x1 32)
    (upd : FVec Ideal S330000x128 .f32)
    (hidx : ∀ i : Fin 330000, idx (ix2 i (0 : Fin 1)) = BitVec.ofNat 32 (dN i).val) (n : Fin 10000) (f : Fin 128) :
    Host.scatterAdd (F := Ideal) scatter_S10000x128_S330000x1_S330000x128_1_0_0_1 x idx upd (ix2 n f)
      = x (ix2 n f) + ∑ i ∈ Finset.univ.filter (fun i : Fin 330000 => dN i = n), upd (ix2 i f) := by
  show Ideal.hostScatterAdd scatter_S10000x128_S330000x1_S330000x128_1_0_0_1 x idx upd (ix2 n f) = _
  rw [Cert.LibScatterAdd.scatterAdd_rows_apply _ rfl rfl rfl rfl]
  refine congrArg (x (ix2 n f) + ·) (Finset.sum_congr (Finset.filter_congr fun i _ => ?_) fun _ _ => rfl)
  rw [hidx i, HostIdx2.toInt_ofNat_of_lt (by have := (dN i).isLt; omega), Int.ofNat_inj]
  exact Fin.val_inj

variable (obs : (⟨S10000x30, .f32⟩ : BufTy).Contents (Elt Ideal)) (act : (⟨S10000x4, .f32⟩ : BufTy).Contents (Elt Ideal))
  (ei : (⟨S2x320000, .i32⟩ : BufTy).Contents (Elt Ideal))
  (w1 : (⟨S34x128, .f32⟩ : BufTy).Contents (Elt Ideal)) (b1 : (⟨S128, .f32⟩ : BufTy).Contents (Elt Ideal))
  (w2 : (⟨S128x128, .f32⟩ : BufTy).Contents (Elt Ideal)) (b2 : (⟨S128, .f32⟩ : BufTy).Contents (Elt Ideal))
  (sN dN : Fin 330000 → Fin 10000)

abbrev obsF (n : Fin 10000) (i : Fin 30) : EReal := obs (ix2 n i)
abbrev actF (n : Fin 10000) (i : Fin 4) : EReal := act (ix2 n i)
abbrev w1F (i : Fin 34) (f : Fin 128) : EReal := w1 (ix2 i f)
abbrev b1F (f : Fin 128) : EReal := b1 (ix1 f)
abbrev w2F (i : Fin 128) (f : Fin 128) : EReal := w2 (ix2 i f)
abbrev b2F (f : Fin 128) : EReal := b2 (ix1 f)

def nrm (i : Fin 330000) : EReal := val_main_v38 (F := Ideal) ei (ix1 i)

theorem feat_apply (n : Fin 10000) (i : Fin 34) :
    val_main_v22 (F := Ideal) obs act (ix2 n i) = Cert.Spec.feat (obsF obs) (actF act) n i := by
  unfold val_main_v22 Cert.Spec.feat
  by_cases h : i.val < 30
  · rw [dif_pos h]
    exact concatenate_pair_apply_left (1 : Fin 2) obs act concatenates_S10000x30_S10000x4_S10000x34_d1 (ix2 n i) rfl
      (ix2 n ⟨i.val, h⟩) (fun b => by match b with | ⟨0, _⟩ => rfl | ⟨1, _⟩ => rfl)
  · rw [dif_neg h]
    exact concatenate_pair_apply_right (1 : Fin 2) obs act concatenates_S10000x30_S10000x4_S10000x34_d1 (ix2 n i) rfl rfl
      (ix2 n ⟨i.val - 30, by have := i.isLt; omega⟩)
      (fun b hb => by match b, hb with | ⟨0, _⟩, _ => rfl | ⟨1, _⟩, hb => exact absurd rfl hb)
      (by show (i.val - 30) + 30 = i.val; omega)

theorem xw1_apply (n : Fin 10000) (f : Fin 128) :
    val_main_v23 (F := Ideal) obs act w1 (ix2 n f)
      = Cert.Spec.dense (Cert.Spec.feat (obsF obs) (actF act)) (w1F w1) n f :=
  (StackMember.dotGeneral_plain_apply none _ w1 n f).trans
    (Finset.sum_congr rfl fun k _ => congrArg (· * _) (feat_apply obs act n k))

variable (hs : ∀ i : Fin 330000, val_main_v3 (F := Ideal) ei (ix1 i) = BitVec.ofNat 32 (sN i).val)
  (hd : ∀ i : Fin 330000, val_main_v6 (F := Ideal) ei (ix1 i) = BitVec.ofNat 32 (dN i).val)
include hs hd

theorem layer_apply (xw : FVec Ideal S10000x128 .f32) (y : Fin 10000 → Fin 128 → EReal)
    (hxw : ∀ n f, xw (ix2 n f) = y n f) (b : (⟨S128, .f32⟩ : BufTy).Contents (Elt Ideal)) (n : Fin 10000) (f : Fin 128) :
    maximumf (addf (Host.scatterAdd (F := Ideal) scatter_S10000x128_S330000x1_S330000x128_1_0_0_1 (val_main_v49 (F := Ideal))
        (val_main_v50 ei) (mulf (Host.gather gather_S10000x128_S330000x1_S330000x128_1_0_n_n_0_1_1128 xw (val_main_v44 ei))
          (val_main_v47 ei))) (val_main_v53 b)) (val_main_call1_v0 (F := Ideal)) (ix2 n f)
      = Cert.Spec.conv sN dN (nrm ei) y (b1F b) n f := by
  have hz : ∀ j, val_main_v49 (F := Ideal) j = 0 := fun _ => Ideal.ofBits_zero_f32
  unfold Cert.Spec.conv Cert.Spec.relu
  rw [maximumf_apply, addf_apply, scatter_dst dN _ _ _ fun i =>
      (val_main_v50_apply ei _).trans ((congrArg _ (eq_ix1 _)).trans (hd i)),
    hz, zero_add, (show val_main_call1_v0 (F := Ideal) (ix2 n f) = 0 from hz _), val_main_v53_apply, val_main_v52_apply,
    (show idx_main_v52 (idx_main_v53 (ix2 n f)) = ix1 f from eq_ix1 _)]
  refine congrArg (fun s => max (s + b (ix1 f)) 0) (Finset.sum_congr rfl fun i _ => ?_)
  rw [mulf_apply, HostIdx2.gather_rows_apply_of_eq _ rfl rfl rfl rfl rfl rfl rfl (by omega) xw _ i f _ (sN i).isLt (by
      rw [val_main_v44_apply, (show idx_main_v44 (ix2 i (0 : Fin 1)) = ix1 i from eq_ix1 _), val_main_v43_apply,
        val_main_v40_apply, val_main_v42_apply, hs i]
      exact if_neg (show ¬ IntOp.cmpi .slt (BitVec.ofNat 32 (sN i).val) 0#32 = 1#1 by
        rw [IntOp.cmpi_slt, HostIdx2.toInt_ofNat_of_lt (by have := (sN i).isLt; omega)]
        exact (Int.natCast_nonneg _).not_gt)),
    hxw, val_main_v47_apply, val_main_v46_apply, (show idx_main_v46 (idx_main_v47 (ix2 i f)) = ix1 i from eq_ix1 _)]
  rfl

theorem ref_layers (n : Fin 10000) (f : Fin 128) :
    val_main_v88 (F := Ideal) obs act ei w1 b1 w2 b2 (ix2 n f)
      = Cert.Spec.layers sN dN (nrm ei) (obsF obs) (actF act) (w1F w1) (b1F b1) (w2F w2) (b2F b2) n f :=
  layer_apply ei sN dN hs hd _ _ (fun n f => (StackMember.dotGeneral_plain_apply none _ w2 n f).trans
    (Finset.sum_congr rfl fun k _ => congrArg (· * _)
      (show val_main_v55 (F := Ideal) obs act ei w1 b1 (ix2 n k) = _ from
        layer_apply ei sN dN hs hd _ _ (xw1_apply obs act w1) b1 n k))) b2 n f

end Cert.ReferenceIdeal.Hand

end
-- ==== Proof.RefHead.lean ====
import proofs.«419566_j52175262711930_3_alg».proof.Proof.RefReadP
import proofs.«419566_j52175262711930_3_alg».proof.Proof.Spec
import Idealize.ShloMosaic.Lib.StackMember

noncomputable section

namespace Cert.ReferenceIdeal.Hand

open Cert.ReferenceIdeal Cert.ReferenceIdeal.Gen Cert.ReferenceIdeal.ReadP Idealize.ShloMosaic Idealize.ShloMosaic.ValueIdx

variable (x0 : (⟨S10000x30, .f32⟩ : BufTy).Contents (Elt Ideal))
  (x1 : (⟨S10000x4, .f32⟩ : BufTy).Contents (Elt Ideal))
  (x2 : (⟨S2x320000, .i32⟩ : BufTy).Contents (Elt Ideal))
  (x3 : (⟨S34x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S128x1, .f32⟩ : BufTy).Contents (Elt Ideal))
  (x10 : (⟨S1, .f32⟩ : BufTy).Contents (Elt Ideal))
  (x11 : (⟨S128x128, .f32⟩ : BufTy).Contents (Elt Ideal))
  (x12 : (⟨S128, .f32⟩ : BufTy).Contents (Elt Ideal))
  (x13 : (⟨S128x1, .f32⟩ : BufTy).Contents (Elt Ideal))
  (x14 : (⟨S1, .f32⟩ : BufTy).Contents (Elt Ideal))

theorem ref_head1 (n : Fin 10000) :
    val_main_v97 (F := Ideal) x0 x1 x2 x3 x4 x5 x6 x7 x8 x9 x10 (ix2 n (0 : Fin 1))
      = Cert.Spec.head (fun a j => val_main_v88 (F := Ideal) x0 x1 x2 x3 x4 x5 x6 (ix2 a j))
          (fun j k => x7 (ix2 j k)) (fun k => x8 (ix1 k)) (fun k => x9 (ix2 k (0 : Fin 1)))
          (x10 (ix1 (0 : Fin 1))) n := by
  have hz : ∀ j, val_main_call3_v0 (F := Ideal) j = 0 := fun _ => Ideal.ofBits_zero_f32
  refine congrArg₂ (· + ·) ((StackMember.dotGeneral_plain_apply none _ x9 n 0).trans
    (Finset.sum_congr rfl fun k _ => ?_))
    ((val_main_v96_apply x10 _).trans ((val_main_v95_apply x10 _).trans (congrArg x10 (eq_ix1 _))))
  unfold val_main_v93
  rw [maximumf_apply, hz]
  exact congrArg₂ (fun s t => max (s + t) 0 * _) (StackMember.dotGeneral_plain_apply none _ x7 n k)
    ((val_main_v53_apply x8 _).trans ((val_main_v52_apply x8 _).trans (congrArg x8 (eq_ix1 _))))

theorem ref_head2 (n : Fin 10000) :
    val_main_v106 (F := Ideal) x0 x1 x2 x3 x4 x5 x6 x11 x12 x13 x14 (ix2 n (0 : Fin 1))
      = Cert.Spec.head (fun a j => val_main_v88 (F := Ideal) x0 x1 x2 x3 x4 x5 x6 (ix2 a j))
          (fun j k => x11 (ix2 j k)) (fun k => x12 (ix1 k)) (fun k => x13 (ix2 k (0 : Fin 1)))
          (x14 (ix1 (0 : Fin 1))) n :=
  ref_head1 x0 x1 x2 x3 x4 x5 x6 x11 x12 x13 x14 n

end Cert.ReferenceIdeal.Hand

end
-- ==== Proof.PreRange.lean ====
import proofs.«419566_j52175262711930_3_alg».proof.Pre_finite_inputs
import proofs.«419566_j52175262711930_3_alg».proof.Proof.Gen.Pre_finite_inputs
import Idealize.ShloMosaic.Lib.StableHlo.Predicate
import Idealize.ShloMosaic.Lib.ReduceAll

noncomputable section

namespace Cert.Pre_finite_inputs.Hand

open Cert.Pre_finite_inputs Idealize.ShloMosaic

instance : Subsingleton S_.Idx := ⟨fun _ _ => funext fun d => d.elim0⟩

theorem word_of_pre {F : FTy → Type} [FloatOps F] [Facts]
    (a0 : FVec F S10000x30 .f32) (a1 : FVec F S10000x4 .f32) (a2 : IVec S2x320000 32) (a3 : FVec F S34x128 .f32)
    (a4 : FVec F S128 .f32) (a5 : FVec F S128x128 .f32) (a6 : FVec F S128 .f32) (a7 : FVec F S128x128 .f32)
    (a8 : FVec F S128 .f32) (a9 : FVec F S128x1 .f32) (a10 : FVec F S1 .f32) (a11 : FVec F S128x128 .f32)
    (a12 : FVec F S128 .f32) (a13 : FVec F S128x1 .f32) (a14 : FVec F S1 .f32)
    (h : fn (F := F) a0 a1 a2 a3 a4 a5 a6 a7 a8 a9 a10 a11 a12 a13 a14 = fun _ => 1#1) :
    ∀ i : S2x320000.Idx, ∃ k : Fin 10000, a2 i = BitVec.ofNat 32 k.val := by
  intro i
  obtain ⟨hge, hlt⟩ := IntOp.andi_eq_one.1
    (Host.reduce_andi_all _ _ _ _ _ (IntOp.andi_eq_one.1 (congrFun h fun d => d.elim0)).2 i)
  have hge : (0 : Int) ≤ (a2 i).toInt := IntOp.cmpi_sge.1 hge
  have hlt : (a2 i).toInt < 10000 := IntOp.cmpi_slt.1 hlt
  have hc := BitVec.toInt_eq_toNat_cond (a2 i)
  refine ⟨⟨(a2 i).toNat, by split at hc <;> omega⟩, ?_⟩
  rw [BitVec.ofNat_toNat, BitVec.setWidth_eq]

end Cert.Pre_finite_inputs.Hand

end
-- ==== Proof.EdgeWords.lean ====
import proofs.«419566_j52175262711930_3_alg».proof.Proof.RefReadP
import proofs.«419566_j52175262711930_3_alg».proof.Proof.PreRange

noncomputable section

namespace Cert.ReferenceIdeal.Hand

open Cert.ReferenceIdeal Cert.ReferenceIdeal.Gen Cert.ReferenceIdeal.ReadP
open Idealize.ShloMosaic Idealize.ShloMosaic.ValueIdx

variable {F : FTy → Type} [FloatOps F]

def nodeOf (r : Fin 2) (x2 : S2x320000.Idx → BitVec 32)
    (hr : ∀ j : S2x320000.Idx, ∃ k : Fin 10000, x2 j = BitVec.ofNat 32 k.val) (i : Fin 330000) : Fin 10000 :=
  if h : i.val < 320000 then Classical.choose (hr (ix2 r ⟨i.val, h⟩))
  else ⟨i.val - 320000, by have := i.isLt; omega⟩

def sNof (x2 : S2x320000.Idx → BitVec 32)
    (hr : ∀ j : S2x320000.Idx, ∃ k : Fin 10000, x2 j = BitVec.ofNat 32 k.val) : Fin 330000 → Fin 10000 :=
  nodeOf 0 x2 hr

def dNof (x2 : S2x320000.Idx → BitVec 32)
    (hr : ∀ j : S2x320000.Idx, ∃ k : Fin 10000, x2 j = BitVec.ofNat 32 k.val) : Fin 330000 → Fin 10000 :=
  nodeOf 1 x2 hr

theorem joined_word (r : Fin 2) (x2 : S2x320000.Idx → BitVec 32)
    (hr : ∀ j : S2x320000.Idx, ∃ k : Fin 10000, x2 j = BitVec.ofNat 32 k.val) (y : S320000.Idx → BitVec 32)
    (hy : ∀ j : Fin 320000, y (ix1 j) = x2 (ix2 r j)) (i : Fin 330000) :
    concatenate S330000 0 [⟨S320000, y⟩, ⟨S10000, iotaInDim S10000 32 0⟩] concatenates_S320000_S10000_S330000_d0 (ix1 i)
      = BitVec.ofNat 32 (nodeOf r x2 hr i).val := by
  unfold nodeOf
  by_cases h : i.val < 320000
  · rw [dif_pos h, ← Classical.choose_spec (hr (ix2 r ⟨i.val, h⟩)), ← hy]
    exact concatenate_pair_apply_left (0 : Fin S330000.rank) y _ concatenates_S320000_S10000_S330000_d0 (ix1 i) rfl
      (ix1 ⟨i.val, h⟩) fun b => by match b with | ⟨0, _⟩ => rfl
  · rw [dif_neg h]
    exact (concatenate_pair_apply_right (0 : Fin S330000.rank) y _ concatenates_S320000_S10000_S330000_d0 (ix1 i) rfl rfl
      (ix1 ⟨i.val - 320000, by have := i.isLt; omega⟩) (fun b hb => by match b with | ⟨0, _⟩ => exact absurd rfl hb)
      (by show i.val - 320000 + 320000 = i.val; omega)).trans rfl

theorem hs_sNof (x2 : (⟨S2x320000, .i32⟩ : BufTy).Contents (Elt F))
    (hr : ∀ j : S2x320000.Idx, ∃ k : Fin 10000, x2 j = BitVec.ofNat 32 k.val) (i : Fin 330000) :
    val_main_v3 (F := F) x2 (ix1 i) = BitVec.ofNat 32 (sNof x2 hr i).val :=
  joined_word 0 x2 hr _ (fun j => by
    rw [val_main_v2_apply, val_main_v1_apply]
    exact congrArg x2 (funext fun a => by
      match a with | ⟨0, _⟩ => rfl | ⟨1, _⟩ => exact Fin.ext (Nat.mod_eq_of_lt j.isLt))) i

theorem hd_dNof (x2 : (⟨S2x320000, .i32⟩ : BufTy).Contents (Elt F))
    (hr : ∀ j : S2x320000.Idx, ∃ k : Fin 10000, x2 j = BitVec.ofNat 32 k.val) (i : Fin 330000) :
    val_main_v6 (F := F) x2 (ix1 i) = BitVec.ofNat 32 (dNof x2 hr i).val :=
  joined_word 1 x2 hr _ (fun j => by
    rw [val_main_v5_apply, val_main_v4_apply]
    exact congrArg x2 (funext fun a => by
      match a with | ⟨0, _⟩ => rfl | ⟨1, _⟩ => exact Fin.ext (Nat.mod_eq_of_lt j.isLt))) i

theorem edge_words_of_pre [Cert.Pre_finite_inputs.Facts]
    (a0 : FVec F Cert.Pre_finite_inputs.S10000x30 .f32) (a1 : FVec F Cert.Pre_finite_inputs.S10000x4 .f32)
    (a2 : IVec S2x320000 32) (a3 : FVec F Cert.Pre_finite_inputs.S34x128 .f32)
    (a4 : FVec F Cert.Pre_finite_inputs.S128 .f32) (a5 : FVec F Cert.Pre_finite_inputs.S128x128 .f32)
    (a6 : FVec F Cert.Pre_finite_inputs.S128 .f32) (a7 : FVec F Cert.Pre_finite_inputs.S128x128 .f32)
    (a8 : FVec F Cert.Pre_finite_inputs.S128 .f32) (a9 : FVec F Cert.Pre_finite_inputs.S128x1 .f32)
    (a10 : FVec F Cert.Pre_finite_inputs.S1 .f32) (a11 : FVec F Cert.Pre_finite_inputs.S128x128 .f32)
    (a12 : FVec F Cert.Pre_finite_inputs.S128 .f32) (a13 : FVec F Cert.Pre_finite_inputs.S128x1 .f32)
    (a14 : FVec F Cert.Pre_finite_inputs.S1 .f32)
    (h : Cert.Pre_finite_inputs.fn (F := F) a0 a1 a2 a3 a4 a5 a6 a7 a8 a9 a10 a11 a12 a13 a14 = fun _ => 1#1) :
    ∀ j : S2x320000.Idx, ∃ k : Fin 10000, a2 j = BitVec.ofNat 32 k.val :=
  Cert.Pre_finite_inputs.Hand.word_of_pre a0 a1 a2 a3 a4 a5 a6 a7 a8 a9 a10 a11 a12 a13 a14 h

end Cert.ReferenceIdeal.Hand

end
-- ==== Proof.Algebra.lean ====
import Mathlib.Data.EReal.Inv
import Mathlib.Algebra.BigOperators.Fin
import Mathlib.Algebra.BigOperators.Group.Finset.Basic
import proofs.«419566_j52175262711930_3_alg».proof.Proof.Spec

namespace Cert.Algebra

noncomputable section

def oh (P : Prop) [Decidable P] : EReal := if P then 1 else 0
def sP (sN : Fin 330000 → Fin 10000) (i : Fin 330112) : ℕ :=
  if h : i.val < 330000 then (sN ⟨i.val, h⟩).val else 0

def dP (dN : Fin 330000 → Fin 10000) (i : Fin 330112) : ℕ :=
  if h : i.val < 330000 then (dN ⟨i.val, h⟩).val else 0

def nP (nrm : Fin 330000 → EReal) (i : Fin 330112) : EReal :=
  if h : i.val < 330000 then nrm ⟨i.val, h⟩ else 0

theorem oh_word {a b : ℕ} (ha : a < 2 ^ 32) (hb : b < 2 ^ 32) :
    oh (BitVec.ofNat 32 a = BitVec.ofNat 32 b) = oh (a = b) :=
  if_congr ⟨fun h => by
    have h' := congrArg BitVec.toNat h
    rwa [BitVec.toNat_ofNat, BitVec.toNat_ofNat, Nat.mod_eq_of_lt ha, Nat.mod_eq_of_lt hb] at h',
    congrArg _⟩ rfl rfl

theorem gather_word {N : ℕ} (hN : N ≤ 2 ^ 32) (s : Fin N) (x : Fin N → EReal) :
    ∑ k : Fin N, oh (BitVec.ofNat 32 k.val = BitVec.ofNat 32 s.val) * x k = x s := by
  rw [Finset.sum_eq_single s (fun k _ hk => ?_) (fun h => absurd (Finset.mem_univ s) h)]
  · rw [oh, if_pos rfl, one_mul]
  · rw [oh_word (by omega) (by omega), oh, if_neg (fun h => hk (Fin.ext h)), zero_mul]

theorem blocks_flat {B L : ℕ} (T : Fin (B * L) → EReal) (hb : ∀ (j : Fin B) (e : Fin L), L * j + e < B * L) :
    ∑ j : Fin B, ∑ e : Fin L, T ⟨L * j + e, hb j e⟩ = ∑ i, T i :=
  (Fintype.sum_prod_type' _).symm.trans
    (Fintype.sum_equiv finProdFinEquiv _ _ fun _ => congrArg T (Fin.ext (Nat.add_comm _ _)))

theorem conv_bridge' (sN dN : Fin 330000 → Fin 10000) (nrm : Fin 330000 → EReal)
    (DA SA : Fin 330112 → BitVec 32) (NA : Fin 330112 → EReal)
    (xw : Fin 10112 → Fin 128 → EReal) (xw' : Fin 10000 → Fin 128 → EReal) (b : Fin 128 → EReal)
    (hD : ∀ i, DA i = BitVec.ofNat 32 (dP dN i)) (hS : ∀ i, SA i = BitVec.ofNat 32 (sP sN i))
    (hN : ∀ i, NA i = nP nrm i)
    (hx : ∀ (k : Fin 10000) (f : Fin 128), xw ⟨k.val, by omega⟩ f = xw' k f)
    (n : Fin 10000) (f : Fin 128) :
    max ((0 + ∑ j : Fin 2579, ∑ e : Fin 128,
        oh (BitVec.ofNat 32 n.val = DA ⟨128 * j.val + e.val, by omega⟩) *
          ((∑ k : Fin 10112,
              oh (BitVec.ofNat 32 k.val = SA ⟨128 * j.val + e.val, by omega⟩) * xw k f) *
            NA ⟨128 * j.val + e.val, by omega⟩)) + b f) 0
      = Cert.Spec.conv sN dN nrm xw' b n f := by
  let T : Fin 330112 → EReal := fun i => oh (BitVec.ofNat 32 n.val = DA i) *
    ((∑ k : Fin 10112, oh (BitVec.ofNat 32 k.val = SA i) * xw k f) * NA i)
  have hpad : ∀ i : Fin 112, T (Fin.natAdd 330000 i) = 0 := fun i => by
    show _ * (_ * NA _) = 0
    rw [hN, show nP nrm (Fin.natAdd 330000 i) = 0 from dif_neg (Nat.not_lt.mpr (Nat.le_add_right _ _)), mul_zero, mul_zero]
  have hreal : ∀ i : Fin 330000, T (Fin.castAdd 112 i)
      = if dN i = n then xw' (sN i) f * nrm i else 0 := fun i => by
    show oh (_ = DA _) * ((∑ k : Fin 10112, oh (_ = SA _) * xw k f) * NA _) = _
    rw [hD, hS, hN, show dP dN (Fin.castAdd 112 i) = (dN i).val from dif_pos i.isLt,
      show sP sN (Fin.castAdd 112 i) = (sN i).val from dif_pos i.isLt, show nP nrm (Fin.castAdd 112 i) = nrm i from dif_pos i.isLt,
      gather_word (by omega) ⟨(sN i).val, by omega⟩ (xw · f), hx, oh_word (by omega) (by omega), oh, boole_mul]
    exact if_congr ⟨fun h => Fin.ext h.symm, fun h => h ▸ rfl⟩ rfl rfl
  show max (0 + (∑ j : Fin 2579, ∑ e : Fin 128, T ⟨128 * j + e, _⟩) + b f) 0 = _
  rw [zero_add, blocks_flat (B := 2579) (L := 128) T fun j e => by omega,
    Fin.sum_trunc (a := 330000) (b := 112) T hpad, Finset.sum_congr rfl fun i _ => hreal i,
    ← Finset.sum_filter]
  rfl

theorem head_congr (x x' : Fin 10000 → Fin 128 → EReal) (wa : Fin 128 → Fin 128 → EReal)
    (ba : Fin 128 → EReal) (wb : Fin 128 → EReal) (bb : EReal) (n : Fin 10000)
    (h : ∀ j, x n j = x' n j) :
    Cert.Spec.head x wa ba wb bb n = Cert.Spec.head x' wa ba wb bb n := by
  simp only [Cert.Spec.head, Cert.Spec.dense, h]

end

end Cert.Algebra
-- ==== Proof.RefAll.lean ====
import proofs.«419566_j52175262711930_3_alg».proof.Proof.RefVal
import proofs.«419566_j52175262711930_3_alg».proof.Proof.RefHead
import proofs.«419566_j52175262711930_3_alg».proof.Proof.EdgeWords
import proofs.«419566_j52175262711930_3_alg».proof.Proof.Algebra

noncomputable section

namespace Cert.ReferenceIdeal.Hand

open Cert.ReferenceIdeal Cert.ReferenceIdeal.Gen Cert.ReferenceIdeal.ReadP
open Idealize.ShloMosaic Idealize.ShloMosaic.ValueIdx

variable (x0 : (⟨S10000x30, .f32⟩ : BufTy).Contents (Elt Ideal)) (x1 : (⟨S10000x4, .f32⟩ : BufTy).Contents (Elt Ideal))
  (x2 : (⟨S2x320000, .i32⟩ : BufTy).Contents (Elt Ideal)) (x3 : (⟨S34x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x1, .f32⟩ : BufTy).Contents (Elt Ideal))
  (x10 : (⟨S1, .f32⟩ : BufTy).Contents (Elt Ideal)) (x11 : (⟨S128x128, .f32⟩ : BufTy).Contents (Elt Ideal))
  (x12 : (⟨S128, .f32⟩ : BufTy).Contents (Elt Ideal)) (x13 : (⟨S128x1, .f32⟩ : BufTy).Contents (Elt Ideal))
  (x14 : (⟨S1, .f32⟩ : BufTy).Contents (Elt Ideal))
  (sN dN : Fin 330000 → Fin 10000)
  (hs : ∀ i : Fin 330000, val_main_v3 (F := Ideal) x2 (ix1 i) = BitVec.ofNat 32 (sN i).val)
  (hd : ∀ i : Fin 330000, val_main_v6 (F := Ideal) x2 (ix1 i) = BitVec.ofNat 32 (dN i).val) (n : Fin 10000)
include hs hd

theorem ref_q1 :
    val_main_v97 (F := Ideal) x0 x1 x2 x3 x4 x5 x6 x7 x8 x9 x10 (ix2 n (0 : Fin 1))
      = Cert.Spec.head (Cert.Spec.layers sN dN (nrm x2) (obsF x0) (actF x1) (w1F x3) (b1F x4) (w2F x5) (b2F x6))
          (fun j k => x7 (ix2 j k)) (fun k => x8 (ix1 k)) (fun k => x9 (ix2 k (0 : Fin 1))) (x10 (ix1 (0 : Fin 1))) n := by
  rw [ref_head1]
  exact Cert.Algebra.head_congr _ _ _ _ _ _ n (ref_layers x0 x1 x2 x3 x4 x5 x6 sN dN hs hd n)

theorem ref_q2 :
    val_main_v106 (F := Ideal) x0 x1 x2 x3 x4 x5 x6 x11 x12 x13 x14 (ix2 n (0 : Fin 1))
      = Cert.Spec.head (Cert.Spec.layers sN dN (nrm x2) (obsF x0) (actF x1) (w1F x3) (b1F x4) (w2F x5) (b2F x6))
          (fun j k => x11 (ix2 j k)) (fun k => x12 (ix1 k)) (fun k => x13 (ix2 k (0 : Fin 1))) (x14 (ix1 (0 : Fin 1))) n := by
  rw [ref_head2]
  exact Cert.Algebra.head_congr _ _ _ _ _ _ n (ref_layers x0 x1 x2 x3 x4 x5 x6 sN dN hs hd n)

end Cert.ReferenceIdeal.Hand

end
-- ==== Proof.HostGlue.lean ====
import proofs.«419566_j52175262711930_3_alg».proof.Proof.Gen.KernelIdeal.Launch
import proofs.«419566_j52175262711930_3_alg».proof.Proof.Gen.KernelIdeal.Regions
import proofs.«419566_j52175262711930_3_alg».proof.Proof.Spec
import proofs.«419566_j52175262711930_3_alg».proof.Proof.RefReadP
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.ReferenceIdeal.ReadP
open Idealize.ShloMosaic Idealize.ShloMosaic.TcCoe Idealize.ShloMosaic.ValueIdx

variable {F : FTy → Type} [FloatOps F]

theorem row_of_vec_apply {α : Type} {n : ℕ} (x : (⟨1, ![n]⟩ : Shape).Idx → α)
    (h : (⟨1, ![n]⟩ : Shape).ShapeCasts ⟨2, ![1, n]⟩) (r : Fin 1) (f : Fin n) :
    shapeCast ⟨2, ![1, n]⟩ x h (ix2 r f) = x (ix1 f) :=
  (shapeCast_addUnit_apply ![n] x h _).trans (congrArg x (funext fun a => match a with | ⟨0, _⟩ => rfl))

theorem padded_row_apply {α : Type} (x : S330000.Idx → α) (z : S112.Idx → α) (i : Fin 330112) :
    shapeCast S1x330112 (concatenate S330112 0 [⟨S330000, x⟩, ⟨S112, z⟩] concatenates_S330000_S112_S330112_d0)
        shapeCasts_S330112_S1x330112 (ix2 0 i)
      = if h : i.val < 330000 then x (ix1 ⟨i.val, h⟩) else z (ix1 ⟨i.val - 330000, by omega⟩) := by
  rw [row_of_vec_apply]
  split
  · exact concatenate_pair_apply_left (0 : Fin S330112.rank) x z _ (ix1 i) rfl _ fun b =>
      match b with | ⟨0, _⟩ => rfl
  · refine concatenate_pair_apply_right (0 : Fin S330112.rank) x z _ (ix1 i) rfl rfl _
      (fun b hb => match b with | ⟨0, _⟩ => absurd rfl hb) ?_
    show i.val - 330000 + 330000 = i.val
    omega

theorem padded_table_apply {α : Type} (a : S10000x30.Idx → α) (b : S10000x4.Idx → α) (z : S112x34.Idx → α)
    (n : Fin 10112) (i : Fin 34) :
    concatenate S10112x34 0
        [⟨S10000x34, concatenate S10000x34 1 [⟨S10000x30, a⟩, ⟨S10000x4, b⟩] concatenates_S10000x30_S10000x4_S10000x34_d1⟩,
         ⟨S112x34, z⟩] concatenates_S10000x34_S112x34_S10112x34_d0 (ix2 n i)
      = if h : n.val < 10000 then
          (if hi : i.val < 30 then a (ix2 ⟨n.val, h⟩ ⟨i.val, hi⟩)
           else b (ix2 ⟨n.val, h⟩ ⟨i.val - 30, by omega⟩))
        else z (ix2 ⟨n.val - 10000, by omega⟩ i) := by
  split
  next h =>
    refine (concatenate_pair_apply_left (0 : Fin S10112x34.rank) _ z concatenates_S10000x34_S112x34_S10112x34_d0
      (ix2 n i) rfl (ix2 ⟨n.val, h⟩ i) fun c => match c with | ⟨0, _⟩ => rfl | ⟨1, _⟩ => rfl).trans ?_
    split
    next hi =>
      exact concatenate_pair_apply_left (1 : Fin S10000x34.rank) a b _ (ix2 ⟨n.val, h⟩ i) rfl
        (ix2 ⟨n.val, h⟩ ⟨i.val, hi⟩) fun c => match c with | ⟨0, _⟩ => rfl | ⟨1, _⟩ => rfl
    · refine concatenate_pair_apply_right (1 : Fin S10000x34.rank) a b _ (ix2 ⟨n.val, h⟩ i) rfl rfl
        (ix2 ⟨n.val, h⟩ ⟨i.val - 30, by omega⟩)
        (fun c hc => match c with | ⟨0, _⟩ => rfl | ⟨1, _⟩ => absurd rfl hc) ?_
      show i.val - 30 + 30 = i.val
      omega
  · refine concatenate_pair_apply_right (0 : Fin S10112x34.rank) _ z concatenates_S10000x34_S112x34_S10112x34_d0
      (ix2 n i) rfl rfl (ix2 ⟨n.val - 10000, by omega⟩ i)
      (fun c hc => match c with | ⟨0, _⟩ => absurd rfl hc | ⟨1, _⟩ => rfl) ?_
    show n.val - 10000 + 10000 = n.val
    omega

abbrev ops2a : List (HloOp τ sig (Elt F)) := (hostOps0_2 (F := F)).take 19
abbrev ops2b : List (HloOp τ sig (Elt F)) := (hostOps0_2 (F := F)).drop 19

theorem after2_split (X : Valuation τ sig (Elt F)) :
    StableHlo.after hostOps0_2 X = StableHlo.after ops2b (StableHlo.after ops2a X) := by
  rw [← StableHlo.after_append, List.take_append_drop]

section Pre
variable (X : Valuation τ sig (Elt F))

theorem a2_keep {r : Ref sig .tc} (hr : r ∉ hostOps0_2_W) :
    StableHlo.after ops2a X (Proc.devRef .tc r) = X (Proc.devRef .tc r) :=
  StableHlo.after_of_writes_sub _ X (List.forall_iff_forall_mem.mpr fun op h =>
    List.forall_iff_forall_mem.mp hostOps0_2_writes op (List.mem_of_mem_take h)) hr

theorem b2_v36 : StableHlo.after ops2b X (Proc.devRef .tc main_v36) = X (Proc.devRef .tc main_v36) := by
  simp only [ops2b, hostOps0_2, List.drop_succ_cons, List.drop_zero]
  after_results_simp

theorem v43_apply (i : Fin 330112) :
    StableHlo.after hostOps0_2 X (Proc.devRef .tc main_v43) (ix2 0 i)
      = if h : i.val < 330000 then X (Proc.devRef .tc main_v3) (ix1 ⟨i.val, h⟩) else 0#32 := by
  rw [after2_split]
  simp only [ops2b, hostOps0_2, List.drop_succ_cons, List.drop_zero]
  after_results
  rw [a2_keep X (r := main_v3) (by decide)]
  exact padded_row_apply _ _ i

theorem v44_apply (i : Fin 330112) :
    StableHlo.after hostOps0_2 X (Proc.devRef .tc main_v44) (ix2 0 i)
      = if h : i.val < 330000 then X (Proc.devRef .tc main_v6) (ix1 ⟨i.val, h⟩) else 0#32 := by
  rw [after2_split]
  simp only [ops2b, hostOps0_2, List.drop_succ_cons, List.drop_zero]
  after_results
  rw [a2_keep X (r := main_v6) (by decide)]
  exact padded_row_apply _ _ i

theorem v45_apply (i : Fin 330112) :
    StableHlo.after hostOps0_2 X (Proc.devRef .tc main_v45) (ix2 0 i)
      = if h : i.val < 330000 then StableHlo.after hostOps0_2 X (Proc.devRef .tc main_v36) (ix1 ⟨i.val, h⟩)
        else FloatOps.ofBits (F := F) .f32 0x00000000#32 := by
  rw [after2_split, b2_v36]
  simp only [ops2b, hostOps0_2, List.drop_succ_cons, List.drop_zero]
  after_results
  exact padded_row_apply _ _ i

theorem v48_apply (n : Fin 10112) (i : Fin 34) :
    StableHlo.after hostOps0_2 X (Proc.devRef .tc main_v48) (ix2 n i)
      = if h : n.val < 10000 then
          (if hi : i.val < 30 then X (Proc.devRef .tc main_arg0) (ix2 ⟨n.val, h⟩ ⟨i.val, hi⟩)
           else X (Proc.devRef .tc main_arg1) (ix2 ⟨n.val, h⟩ ⟨i.val - 30, by have := i.isLt; omega⟩))
        else FloatOps.ofBits (F := F) .f32 0x00000000#32 := by
  rw [after2_split]
  simp only [ops2b, hostOps0_2, List.drop_succ_cons, List.drop_zero]
  after_results
  rw [a2_keep X (r := main_arg0) (by decide), a2_keep X (r := main_arg1) (by decide)]
  exact padded_table_apply _ _ _ n i

theorem v49_apply (f : Fin 128) :
    StableHlo.after hostOps0_2 X (Proc.devRef .tc main_v49) (ix2 0 f) = X (Proc.devRef .tc main_arg4) (ix1 f) := by
  rw [after2_split]
  simp only [ops2b, hostOps0_2, List.drop_succ_cons, List.drop_zero]
  after_results
  rw [a2_keep X (r := main_arg4) (by decide)]
  exact row_of_vec_apply _ _ 0 f

theorem v50_apply (f : Fin 128) :
    StableHlo.after hostOps0_2 X (Proc.devRef .tc main_v50) (ix2 0 f) = X (Proc.devRef .tc main_arg6) (ix1 f) := by
  rw [after2_split]
  simp only [ops2b, hostOps0_2, List.drop_succ_cons, List.drop_zero]
  after_results
  rw [a2_keep X (r := main_arg6) (by decide)]
  exact row_of_vec_apply _ _ 0 f

end Pre

section Shared

abbrev ops0a : List (HloOp τ sig (Elt F)) := (hostOps0 (F := F)).take 7
abbrev ops0b : List (HloOp τ sig (Elt F)) := (hostOps0 (F := F)).drop 7

theorem after0_split (X : Valuation τ sig (Elt F)) :
    StableHlo.after hostOps0 X = StableHlo.after ops0b (StableHlo.after ops0a X) := by
  rw [← StableHlo.after_append, List.take_append_drop]

variable (X : Valuation τ sig (Elt F)) (x2 : (⟨Cert.ReferenceIdeal.S2x320000, .i32⟩ : BufTy).Contents (Elt F))

theorem a0_v3 : StableHlo.after ops0a X (Proc.devRef .tc main_v3)
    = val_main_v3 (F := F) (X (Proc.devRef .tc main_arg2)) := by
  simp only [ops0a, hostOps0, List.take_succ_cons, List.take_zero]
  after_results
  rfl

theorem a0_v6 : StableHlo.after ops0a X (Proc.devRef .tc main_v6)
    = val_main_v6 (F := F) (X (Proc.devRef .tc main_arg2)) := by
  simp only [ops0a, hostOps0, List.take_succ_cons, List.take_zero]
  after_results
  rfl

theorem b0_v3 : StableHlo.after ops0b X (Proc.devRef .tc main_v3) = X (Proc.devRef .tc main_v3) := by
  simp only [ops0b, hostOps0, List.drop_succ_cons, List.drop_zero]
  after_results_simp
theorem b0_v6 : StableHlo.after ops0b X (Proc.devRef .tc main_v6) = X (Proc.devRef .tc main_v6) := by
  simp only [ops0b, hostOps0, List.drop_succ_cons, List.drop_zero]
  after_results_simp

theorem pre_v21 (h6 : X (Proc.devRef .tc main_v6) = val_main_v6 x2) :
    StableHlo.after hostOps0_1 (StableHlo.after ops0b X) (Proc.devRef .tc main_v21) = val_main_v21 x2 := by
  after_results
  simp only [StableHlo.TRef.ofBuf, StableHlo.TRef.toBuf, StableHlo.TRef.of, cast_eq, ops0b, hostOps0,
    List.drop_succ_cons, List.drop_zero]
  after_results_simp
  rw [h6]
  rfl

theorem a2_v36_ref (h21 : X (Proc.devRef .tc main_v21) = val_main_v21 x2)
    (h3 : X (Proc.devRef .tc main_v3) = val_main_v3 x2)
    (h6 : X (Proc.devRef .tc main_v6) = val_main_v6 x2) :
    StableHlo.after ops2a X (Proc.devRef .tc main_v36) = val_main_v38 x2 := by
  simp only [ops2a, hostOps0_2, List.take_succ_cons, List.take_zero]
  after_results_simp
  rw [h21, h3, h6]
  rfl

theorem pre_v3 : StableHlo.after hostOps0 X (Proc.devRef .tc main_v3)
    = Cert.ReferenceIdeal.ReadP.val_main_v3 (F := F) (X (Proc.devRef .tc main_arg2)) := by
  rw [after0_split, b0_v3, a0_v3]

theorem pre_v6 : StableHlo.after hostOps0 X (Proc.devRef .tc main_v6)
    = Cert.ReferenceIdeal.ReadP.val_main_v6 (F := F) (X (Proc.devRef .tc main_arg2)) := by
  rw [after0_split, b0_v6, a0_v6]

theorem pre_v36 : StableHlo.after hostOps0_2 (StableHlo.after hostOps0_1 (StableHlo.after hostOps0 X)) (Proc.devRef .tc main_v36)
    = Cert.ReferenceIdeal.ReadP.val_main_v38 (F := F) (X (Proc.devRef .tc main_arg2)) := by
  rw [after2_split, b2_v36]
  refine a2_v36_ref _ _ ?_
    ((StableHlo.after_of_writes_sub _ _ hostOps0_1_writes (by decide)).trans (pre_v3 X))
    ((StableHlo.after_of_writes_sub _ _ hostOps0_1_writes (by decide)).trans (pre_v6 X))
  rw [after0_split]
  exact pre_v21 _ _ (a0_v6 X)

end Shared

section Late
variable (X : Valuation τ sig (Elt F))

theorem v53_apply (f : Fin 128) :
    StableHlo.after hostOps2 X (Proc.devRef .tc main_v53) (ix2 0 f) = X (Proc.devRef .tc main_arg8) (ix1 f) := by
  after_results
  exact row_of_vec_apply _ _ 0 f

theorem v54_apply :
    StableHlo.after hostOps2 X (Proc.devRef .tc main_v54) (ix2 0 0) = X (Proc.devRef .tc main_arg10) (ix1 0) := by
  after_results
  exact row_of_vec_apply _ _ 0 0

theorem v55_apply (f : Fin 128) :
    StableHlo.after hostOps2 X (Proc.devRef .tc main_v55) (ix2 0 f) = X (Proc.devRef .tc main_arg12) (ix1 f) := by
  after_results
  exact row_of_vec_apply _ _ 0 f

theorem v56_apply :
    StableHlo.after hostOps2 X (Proc.devRef .tc main_v56) (ix2 0 0) = X (Proc.devRef .tc main_arg14) (ix1 0) := by
  after_results
  exact row_of_vec_apply _ _ 0 0

theorem v58_apply (n : Fin 10000) :
    StableHlo.after hostOps3 X (Proc.devRef .tc main_v58) (ix2 n 0)
      = X (Proc.devRef .tc main_v57_0) (ix2 ⟨n.val, by have := n.isLt; omega⟩ 0) := by
  after_results
  exact slice2_axis0_apply 0 _ _ n 0 _ (Nat.zero_add _).symm

theorem v59_apply (n : Fin 10000) :
    StableHlo.after hostOps3 X (Proc.devRef .tc main_v59) (ix2 n 0)
      = X (Proc.devRef .tc main_v57_1) (ix2 ⟨n.val, by have := n.isLt; omega⟩ 0) := by
  after_results
  exact slice2_axis0_apply 0 _ _ n 0 _ (Nat.zero_add _).symm

end Late

end Cert.KernelIdeal.Hand

end
-- ==== Proof.R0Final.lean ====
import proofs.«419566_j52175262711930_3_alg».proof.Proof.R0Data
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx

variable {F : FTy → Type} [FloatOps F]
  (V : (c : Dev nD) → (b : Ref sig .tc) → Buf (Elt F) ((c : Thread nD τ).loc b)) (c : Dev nD) (t : Fin cfg0.N)

theorem blk0_idx : (∀ a, win0_0.index t a = 0) ∧ win0_3.index t 0 = 0 ∧ win0_3.index t 1 = t := by
  revert t; decide +kernel

theorem blk0_lt : t.val < 2579 := Nat.lt_of_lt_of_eq t.isLt N_0

theorem blk0_0_apply (n : Fin 10112) (i : Fin 34) :
    iblk0 V c 0 t (ix2 n i) = V c (Pipeline.arrRef spec0 0) (ix2 n i) :=
  congrArg (V c _) (funext fun a => Fin.ext (win0_0.rect_emb_val_of_index_zero t a ((blk0_idx t).1 a) _))

theorem blk0_1_apply (i : Fin 34) (f : Fin 128) :
    iblk0 V c 1 t (ix2 i f) = V c (Pipeline.arrRef spec0 1) (ix2 i f) :=
  congrArg (V c _) (funext fun a => Fin.ext (win0_1.rect_emb_val_of_index_zero t a ((blk0_idx t).1 a) _))

theorem blk0_2_apply (f : Fin 128) :
    iblk0 V c 2 t (ix2 (0 : Fin 1) f) = V c (Pipeline.arrRef spec0 2) (ix2 (0 : Fin 1) f) :=
  congrArg (V c _) (funext fun a => Fin.ext (win0_2.rect_emb_val_of_index_zero t a ((blk0_idx t).1 a) _))

theorem emb0_row (e : Fin 128) : (win0_3.rect t).emb (ix2 (0 : Fin 1) e)
    = ix2 (0 : Fin 1) (⟨128 * t.val + e.val, by have := blk0_lt t; omega⟩ : Fin 330112) :=
  Shape.idx_ext₂ (win0_3.rect_emb_val_of_index_zero t 0 (blk0_idx t).2.1 _)
    ((win0_3.rect_emb_val t _ 1).trans (by rw [(blk0_idx t).2.2]; exact congrArg (· + e.val) (Nat.mul_comm _ _)))

theorem blk0_3_apply (e : Fin 128) : iblk0 V c 3 t (ix2 (0 : Fin 1) e)
    = V c (Pipeline.arrRef spec0 3) (ix2 (0 : Fin 1) (⟨128 * t.val + e.val, by have := blk0_lt t; omega⟩ : Fin 330112)) :=
  congrArg (V c _) (emb0_row t e)

theorem blk0_4_apply (e : Fin 128) : iblk0 V c 4 t (ix2 (0 : Fin 1) e)
    = V c (Pipeline.arrRef spec0 4) (ix2 (0 : Fin 1) (⟨128 * t.val + e.val, by have := blk0_lt t; omega⟩ : Fin 330112)) :=
  congrArg (V c _) (emb0_row t e)

theorem blk0_5_apply (e : Fin 128) : iblk0 V c 5 t (ix2 (0 : Fin 1) e)
    = V c (Pipeline.arrRef spec0 5) (ix2 (0 : Fin 1) (⟨128 * t.val + e.val, by have := blk0_lt t; omega⟩ : Fin 330112)) :=
  congrArg (V c _) (emb0_row t e)

abbrev lastpt0 : Fin cfg0.N := ⟨2578, by decide⟩

theorem final0_6 : (dat0 V c).arrAt 6 cfg0.N = out0_6 V c lastpt0 := funext fun i => by
  have h := (dat0 V c).arrAt_emb_eq_flushed 6 (fun t t' ht ht' hne => absurd (Fin.ext (by
    have := (flush0_6 t).mp ht; have := (flush0_6 t').mp ht'; have := blk0_lt t; have := blk0_lt t'; omega)) hne)
    lastpt0 ((flush0_6 _).mpr rfl) i
  rwa [show ((cfg0.win 6).blk lastpt0).view.emb i = i from
    funext fun a => Fin.ext (win0_6.rect_emb_val_of_index_zero lastpt0 a ((blk0_idx lastpt0).1 a) _)] at h

end Cert.KernelIdeal.Hand

end
-- ==== Proof.LibPlainDot.lean ====
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy} (D : DotDims ⟨2, ![m, k]⟩ ⟨2, ![k, n]⟩ ⟨2, ![m, n]⟩) (hD : D = DotDims.plain m k n)
  (prec : Option ContractPrecision) (A : FVec Ideal ⟨2, ![m, k]⟩ φ₁) (B : FVec Ideal ⟨2, ![k, n]⟩ φ₂) (a : Fin m) (b : Fin n)
include hD

/-- A plain matrix product over the extended reals, entry by entry: the sum over the contracted axis. -/
theorem dotGeneral_apply : Host.dotGeneral D prec A B (ix2 a b) = ∑ c : Fin k, A (ix2 a c) * B (ix2 c b) := by
  subst hD
  exact StackMember.dotGeneral_plain_apply prec A B a b

/-- The same for a product accumulated into zero. -/
theorem matmul_zero_apply :
    matmul D prec A B (constant (F := Ideal) ⟨2, ![m, n]⟩ .f32 0x00000000#32) (ix2 a b) = ∑ c : Fin k, A (ix2 a c) * B (ix2 c b) := by
  subst hD
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibPlainDot

end
-- ==== Proof.PayIdeal.lean ====
import proofs.«419566_j52175262711930_3_alg».proof.Proof.Gen.KernelIdeal.Skeleton
import proofs.«419566_j52175262711930_3_alg».proof.Proof.LibPlainDot
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Hand

open Idealize.ShloMosaic Idealize.ShloMosaic.ValueIdx Cert.KernelIdeal Cert.KernelIdeal.Gen Cert.LibPlainDot

def oh (P : Prop) [Decidable P] : EReal := if P then 1 else 0

abbrev iotaWord {n : Nat} (k : Fin n) : BitVec 32 := BitVec.ofNat 32 k.val

theorem mask_apply {s : Shape} (a b : IVec s 32) (h) (i : s.Idx) :
    (sitofp .f32 (extui 32 (cmpi .eq a b) h) : FVec Ideal s .f32) i = oh (a i = b i) := by
  show (((((IntOp.cmpi .eq (a i) (b i)).setWidth 32).toInt : ℤ) : ℝ) : EReal) = _
  by_cases h : a i = b i
  · simp [oh, IntOp.cmpi, h]
  · simp [oh, IntOp.cmpi, h, beq_eq_false_iff_ne.2 h]

theorem col_apply {α : Type} {a b : ℕ} (x : (⟨2, ![1, a]⟩ : Shape).Idx → α) (h1 h2 h3) (i : Fin a) (c : Fin b) :
    broadcastTo ⟨2, ![a, b]⟩ (shapeCast ⟨2, ![a, 1]⟩ (shapeCast ⟨1, ![a]⟩ x h1) h2) h3 (ix2 i c) = x (ix2 0 i) := by
  rw [broadcastTo_apply _ h3 _ (ix2 i (0 : Fin 1)) fun ax => ?_, shapeCast_apply _ h2 _ (ix1 i) ?_, shapeCast_1a_a_apply]
  · rw [Shape.rowMajor_val_two, Shape.rowMajor_val_one]
    show i.val = i.val * 1 + 0
    omega
  · match ax with
    | ⟨0, _⟩ =>
      show i.val = if a = 1 then 0 else i.val
      split
      · have := i.isLt; omega
      · rfl
    | ⟨1, _⟩ => rfl

variable (src dst : Vec Ideal S1x128 .i32) (nrm : Vec Ideal S1x128 .f32) (xw acc : Vec Ideal S10112x128 .f32)
  (b : Vec Ideal S1x128 .f32) (n : Fin 10112) (f : Fin 128)

theorem pay3_apply : k0_pay3 (F := Ideal) (ix2 n f) = 0 := Ideal.ofBits_zero_f32

theorem pay1_apply : k0_pay1 (F := Ideal) acc b (ix2 n f) = max (acc (ix2 n f) + b (ix2 0 f)) 0 := by
  show max (_ + broadcastTo _ (shapeCast _ b _) _ _) (Ideal.ofBits .f32 0#32) = _
  rw [broadcastTo_1b_ab_apply, shapeCast_self, Ideal.ofBits_zero_f32]

theorem pay2_apply (x : Vec Ideal S10112x34 .f32) (w : Vec Ideal S34x128 .f32) (n : Fin 10112) (f : Fin 128) :
    k0_pay2 (F := Ideal) x w (ix2 n f) = ∑ i : Fin 34, x (ix2 n i) * w (ix2 i f) := by
  unfold k0_pay2
  rw [shapeCast_self, shapeCast_self]
  exact matmul_zero_apply dot_S10112x34_S34x128_S10112x128_1_0_0_1_n_n rfl none _ _ n f

theorem pay4_apply : k0_pay4 (F := Ideal) src dst nrm xw acc (ix2 n f)
      = acc (ix2 n f) + ∑ e : Fin 128, oh (iotaWord n = dst (ix2 0 e))
          * ((∑ k : Fin 10112, oh (iotaWord k = src (ix2 0 e)) * xw (ix2 k f)) * nrm (ix2 0 e)) := by
  unfold k0_pay4
  simp only [shapeCast_self, addf_apply, mulf_apply, truncf_apply, mask_apply, col_apply,
    iota_single_apply .tc S128x10112 32 1, iota_single_apply .tc S10112x128 32 0,
    broadcastTo_1b_ab_apply, shapeCast_a_1a_apply, shapeCast_1a_a_apply,
    matmul_zero_apply dot_S10112x128_S128x128_S10112x128_1_0_0_1_n_n rfl none,
    matmul_zero_apply dot_S128x10112_S10112x128_S128x128_1_0_0_1_n_n rfl none]

theorem k1pay3_apply : k1_pay3 (F := Ideal) (ix2 n f) = 0 := Ideal.ofBits_zero_f32

theorem k1pay1_apply : k1_pay1 (F := Ideal) acc b (ix2 n f) = max (acc (ix2 n f) + b (ix2 0 f)) 0 :=
  pay1_apply acc b n f

theorem k1pay2_apply (x : Vec Ideal S10112x128 .f32) (w : Vec Ideal S128x128 .f32) (n : Fin 10112) (f : Fin 128) :
    k1_pay2 (F := Ideal) x w (ix2 n f) = ∑ i : Fin 128, x (ix2 n i) * w (ix2 i f) := by
  unfold k1_pay2
  rw [shapeCast_self, shapeCast_self]
  exact matmul_zero_apply dot_S10112x128_S128x128_S10112x128_1_0_0_1_n_n rfl none _ _ n f

theorem k1pay4_apply : k1_pay4 (F := Ideal) src dst nrm xw acc (ix2 n f)
      = acc (ix2 n f) + ∑ e : Fin 128, oh (iotaWord n = dst (ix2 0 e))
          * ((∑ k : Fin 10112, oh (iotaWord k = src (ix2 0 e)) * xw (ix2 k f)) * nrm (ix2 0 e)) :=
  pay4_apply src dst nrm xw acc n f

variable (x wa : Vec Ideal S128x128 .f32) (ba : Vec Ideal S1x128 .f32) (wb : Vec Ideal S128x1 .f32)
  (bb : Vec Ideal S1x1 .f32) (y : Fin 128)

theorem qpay3_apply : k2_pay3 (F := Ideal) x wa ba wb bb (ix2 y 0)
      = (∑ k : Fin 128, max ((∑ j : Fin 128, x (ix2 y j) * wa (ix2 j k)) + ba (ix2 0 k)) 0 * wb (ix2 k 0)) + bb (ix2 0 0) := by
  unfold k2_pay3 k2_pay2
  simp only [shapeCast_self, addf_apply, maximumf_apply, truncf_apply, broadcast_apply, broadcastTo_1b_ab_apply,
    matmul_zero_apply dot_S128x128_S128x1_S128x1_1_0_0_1_n_n rfl none,
    matmul_zero_apply dot_S128x128_S128x128_S128x128_1_0_0_1_n_n rfl none]
  show (∑ k : Fin 128, max (_ + _) (Ideal.ofBits .f32 0#32) * _) + _ = _
  rw [Ideal.ofBits_zero_f32]

theorem qpay14_apply : k2_pay1 (F := Ideal) (k2_pay4 x wa ba wb) bb (ix2 y 0)
      = (∑ k : Fin 128, max ((∑ j : Fin 128, x (ix2 y j) * wa (ix2 j k)) + ba (ix2 0 k)) 0 * wb (ix2 k 0)) + bb (ix2 0 0) :=
  qpay3_apply x wa ba wb bb y

end Cert.KernelIdeal.Hand

end
-- ==== Proof.Conv0Val.lean ====
import proofs.«419566_j52175262711930_3_alg».proof.Proof.R0Final
import proofs.«419566_j52175262711930_3_alg».proof.Proof.PayIdeal
import proofs.«419566_j52175262711930_3_alg».proof.Proof.Algebra

noncomputable section

namespace Cert.KernelIdeal.Hand

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b)) (c : Dev nD)

abbrev kdim0 : ℕ := 34

def xA0 (k : Fin 10112) (i : Fin kdim0) : EReal := V c (Pipeline.arrRef spec0 0) (ix2 k i)
def wA0 (i : Fin kdim0) (f : Fin 128) : EReal := V c (Pipeline.arrRef spec0 1) (ix2 i f)
def bA0 (f : Fin 128) : EReal := V c (Pipeline.arrRef spec0 2) (ix2 (0 : Fin 1) f)
def srcA0 (i : Fin 330112) : BitVec 32 := V c (Pipeline.arrRef spec0 3) (ix2 (0 : Fin 1) i)
def dstA0 (i : Fin 330112) : BitVec 32 := V c (Pipeline.arrRef spec0 4) (ix2 (0 : Fin 1) i)
def nrmA0 (i : Fin 330112) : EReal := V c (Pipeline.arrRef spec0 5) (ix2 (0 : Fin 1) i)

theorem xw0_apply (k : Fin 10112) (f : Fin 128) : xw0 V c (ix2 k f) = ∑ i : Fin kdim0, xA0 V c k i * wA0 V c i f :=
  (pay2_apply _ _ k f).trans (Finset.sum_congr rfl fun i _ => by rw [blk0_0_apply, blk0_1_apply]; rfl)

def part0 (j : ℕ) (n : Fin 10112) (f : Fin 128) : EReal :=
  if h : j < 2579 then
    ∑ e : Fin 128, Cert.Algebra.oh (iotaWord n = dstA0 V c ⟨128 * j + e.val, by omega⟩)
      * ((∑ k : Fin 10112, Cert.Algebra.oh (iotaWord k = srcA0 V c ⟨128 * j + e.val, by omega⟩) * xw0 V c (ix2 k f))
          * nrmA0 V c ⟨128 * j + e.val, by omega⟩)
  else 0

variable (n : Fin 10112) (f : Fin 128)

theorem part0_step (t : Fin cfg0.N) (acc : Vec Ideal S10112x128 .f32) :
    k0_pay4 (iblk0 V c 3 t) (iblk0 V c 4 t) (iblk0 V c 5 t) (xw0 V c) acc (ix2 n f) = acc (ix2 n f) + part0 V c t.val n f := by
  rw [pay4_apply, part0, dif_pos (blk0_lt t)]
  refine congrArg (acc (ix2 n f) + ·) (Finset.sum_congr rfl fun e _ => ?_)
  rw [blk0_3_apply, blk0_4_apply, blk0_5_apply]
  rfl

theorem accAt0_apply (t : ℕ) (ht : t < cfg0.N) :
    accAt0 V c t ht (ix2 n f) = 0 + ∑ j ∈ Finset.range (t + 1), part0 V c j n f := by
  induction t with
  | zero => rw [Finset.sum_range_one, ← pay3_apply n f]; exact part0_step V c n f ⟨0, ht⟩ _
  | succ t ih => rw [Finset.sum_range_succ, ← add_assoc, ← ih]; exact part0_step V c n f ⟨t + 1, ht⟩ _

theorem conv0_val : (dat0 V c).arrAt 6 cfg0.N (ix2 n f) = max ((0 + ∑ j : Fin 2579, part0 V c j.val n f) + bA0 V c f) 0 := by
  rw [final0_6, ← Finset.sum_range fun j => part0 V c j n f]
  exact (pay1_apply _ _ n f).trans (by rw [accAt0_apply, blk0_2_apply]; rfl)

end Cert.KernelIdeal.Hand

end
-- ==== Proof.Layer0.lean ====
import proofs.«419566_j52175262711930_3_alg».proof.Proof.Conv0Val

noncomputable section

namespace Cert.KernelIdeal.Hand

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem layer0_spec (c : Dev nD) (sN dN : Fin 330000 → Fin 10000) (nrm : Fin 330000 → EReal)
    (x' : Fin 10000 → Fin kdim0 → EReal) (w' : Fin kdim0 → Fin 128 → EReal) (b' : Fin 128 → EReal)
    (hX : ∀ (k : Fin 10000) (i : Fin kdim0), xA0 V c ⟨k.val, by omega⟩ i = x' k i)
    (hW : ∀ i f, wA0 V c i f = w' i f) (hB : ∀ f, bA0 V c f = b' f)
    (hS : ∀ i : Fin 330112, srcA0 V c i = BitVec.ofNat 32 (Cert.Algebra.sP sN i))
    (hD : ∀ i, dstA0 V c i = BitVec.ofNat 32 (Cert.Algebra.dP dN i))
    (hN : ∀ i, nrmA0 V c i = Cert.Algebra.nP nrm i)
    (n : Fin 10000) (f : Fin 128) :
    (dat0 V c).arrAt 6 cfg0.N (ix2 ⟨n.val, by omega⟩ f)
      = Cert.Spec.conv sN dN nrm (Cert.Spec.dense x' w') b' n f := by
  rw [conv0_val, hB f]
  exact (congrArg (fun s => max ((0 + s) + b' f) 0) (Finset.sum_congr rfl fun j _ => dif_pos j.isLt)).trans
    (Cert.Algebra.conv_bridge' sN dN nrm (dstA0 V c) (srcA0 V c) (nrmA0 V c) (fun k f => xw0 V c (ix2 k f)) _ b' hD hS hN
      (fun k f => (xw0_apply V c _ f).trans (Finset.sum_congr rfl fun i _ => by rw [hX k i, hW i f])) n f)

end Cert.KernelIdeal.Hand

end
-- ==== Proof.R1Final.lean ====
import proofs.«419566_j52175262711930_3_alg».proof.Proof.R1Data
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx

variable {F : FTy → Type} [FloatOps F]
  (V : (c : Dev nD) → (b : Ref sig .tc) → Buf (Elt F) ((c : Thread nD τ).loc b)) (c : Dev nD) (t : Fin cfg1.N)

theorem blk1_idx : (∀ a, win1_0.index t a = 0) ∧ win1_3.index t 0 = 0 ∧ win1_3.index t 1 = t := by
  revert t; decide +kernel

theorem blk1_lt : t.val < 2579 := Nat.lt_of_lt_of_eq t.isLt N_1

theorem blk1_0_apply (n : Fin 10112) (i : Fin 128) :
    iblk1 V c 0 t (ix2 n i) = V c (Pipeline.arrRef spec1 0) (ix2 n i) :=
  congrArg (V c _) (funext fun a => Fin.ext (win1_0.rect_emb_val_of_index_zero t a ((blk1_idx t).1 a) _))

theorem blk1_1_apply (i : Fin 128) (f : Fin 128) :
    iblk1 V c 1 t (ix2 i f) = V c (Pipeline.arrRef spec1 1) (ix2 i f) :=
  congrArg (V c _) (funext fun a => Fin.ext (win1_1.rect_emb_val_of_index_zero t a ((blk1_idx t).1 a) _))

theorem blk1_2_apply (f : Fin 128) :
    iblk1 V c 2 t (ix2 (0 : Fin 1) f) = V c (Pipeline.arrRef spec1 2) (ix2 (0 : Fin 1) f) :=
  congrArg (V c _) (funext fun a => Fin.ext (win1_2.rect_emb_val_of_index_zero t a ((blk1_idx t).1 a) _))

theorem emb1_row (e : Fin 128) : (win1_3.rect t).emb (ix2 (0 : Fin 1) e)
    = ix2 (0 : Fin 1) (⟨128 * t.val + e.val, by have := blk1_lt t; omega⟩ : Fin 330112) :=
  Shape.idx_ext₂ (win1_3.rect_emb_val_of_index_zero t 0 (blk1_idx t).2.1 _)
    ((win1_3.rect_emb_val t _ 1).trans (by rw [(blk1_idx t).2.2]; exact congrArg (· + e.val) (Nat.mul_comm _ _)))

theorem blk1_3_apply (e : Fin 128) : iblk1 V c 3 t (ix2 (0 : Fin 1) e)
    = V c (Pipeline.arrRef spec1 3) (ix2 (0 : Fin 1) (⟨128 * t.val + e.val, by have := blk1_lt t; omega⟩ : Fin 330112)) :=
  congrArg (V c _) (emb1_row t e)

theorem blk1_4_apply (e : Fin 128) : iblk1 V c 4 t (ix2 (0 : Fin 1) e)
    = V c (Pipeline.arrRef spec1 4) (ix2 (0 : Fin 1) (⟨128 * t.val + e.val, by have := blk1_lt t; omega⟩ : Fin 330112)) :=
  congrArg (V c _) (emb1_row t e)

theorem blk1_5_apply (e : Fin 128) : iblk1 V c 5 t (ix2 (0 : Fin 1) e)
    = V c (Pipeline.arrRef spec1 5) (ix2 (0 : Fin 1) (⟨128 * t.val + e.val, by have := blk1_lt t; omega⟩ : Fin 330112)) :=
  congrArg (V c _) (emb1_row t e)

abbrev lastpt1 : Fin cfg1.N := ⟨2578, by decide⟩

theorem final1_6 : (dat1 V c).arrAt 6 cfg1.N = out1_6 V c lastpt1 := funext fun i => by
  have h := (dat1 V c).arrAt_emb_eq_flushed 6 (fun t t' ht ht' hne => absurd (Fin.ext (by
    have := (flush1_6 t).mp ht; have := (flush1_6 t').mp ht'; have := blk1_lt t; have := blk1_lt t'; omega)) hne)
    lastpt1 ((flush1_6 _).mpr rfl) i
  rwa [show ((cfg1.win 6).blk lastpt1).view.emb i = i from
    funext fun a => Fin.ext (win1_6.rect_emb_val_of_index_zero lastpt1 a ((blk1_idx lastpt1).1 a) _)] at h

end Cert.KernelIdeal.Hand

end
-- ==== Proof.Conv1Val.lean ====
import proofs.«419566_j52175262711930_3_alg».proof.Proof.R1Final
import proofs.«419566_j52175262711930_3_alg».proof.Proof.PayIdeal
import proofs.«419566_j52175262711930_3_alg».proof.Proof.Algebra

noncomputable section

namespace Cert.KernelIdeal.Hand

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b)) (c : Dev nD)

abbrev kdim1 : ℕ := 128

def xA1 (k : Fin 10112) (i : Fin kdim1) : EReal := V c (Pipeline.arrRef spec1 0) (ix2 k i)
def wA1 (i : Fin kdim1) (f : Fin 128) : EReal := V c (Pipeline.arrRef spec1 1) (ix2 i f)
def bA1 (f : Fin 128) : EReal := V c (Pipeline.arrRef spec1 2) (ix2 (0 : Fin 1) f)
def srcA1 (i : Fin 330112) : BitVec 32 := V c (Pipeline.arrRef spec1 3) (ix2 (0 : Fin 1) i)
def dstA1 (i : Fin 330112) : BitVec 32 := V c (Pipeline.arrRef spec1 4) (ix2 (0 : Fin 1) i)
def nrmA1 (i : Fin 330112) : EReal := V c (Pipeline.arrRef spec1 5) (ix2 (0 : Fin 1) i)

theorem xw1_apply (k : Fin 10112) (f : Fin 128) : xw1 V c (ix2 k f) = ∑ i : Fin kdim1, xA1 V c k i * wA1 V c i f :=
  (k1pay2_apply _ _ k f).trans (Finset.sum_congr rfl fun i _ => by rw [blk1_0_apply, blk1_1_apply]; rfl)

def part1 (j : ℕ) (n : Fin 10112) (f : Fin 128) : EReal :=
  if h : j < 2579 then
    ∑ e : Fin 128, Cert.Algebra.oh (iotaWord n = dstA1 V c ⟨128 * j + e.val, by omega⟩)
      * ((∑ k : Fin 10112, Cert.Algebra.oh (iotaWord k = srcA1 V c ⟨128 * j + e.val, by omega⟩) * xw1 V c (ix2 k f))
          * nrmA1 V c ⟨128 * j + e.val, by omega⟩)
  else 0

variable (n : Fin 10112) (f : Fin 128)

theorem part1_step (t : Fin cfg1.N) (acc : Vec Ideal S10112x128 .f32) :
    k1_pay4 (iblk1 V c 3 t) (iblk1 V c 4 t) (iblk1 V c 5 t) (xw1 V c) acc (ix2 n f) = acc (ix2 n f) + part1 V c t.val n f := by
  rw [k1pay4_apply, part1, dif_pos (blk1_lt t)]
  refine congrArg (acc (ix2 n f) + ·) (Finset.sum_congr rfl fun e _ => ?_)
  rw [blk1_3_apply, blk1_4_apply, blk1_5_apply]
  rfl

theorem accAt1_apply (t : ℕ) (ht : t < cfg1.N) :
    accAt1 V c t ht (ix2 n f) = 0 + ∑ j ∈ Finset.range (t + 1), part1 V c j n f := by
  induction t with
  | zero => rw [Finset.sum_range_one, ← k1pay3_apply n f]; exact part1_step V c n f ⟨0, ht⟩ _
  | succ t ih => rw [Finset.sum_range_succ, ← add_assoc, ← ih]; exact part1_step V c n f ⟨t + 1, ht⟩ _

theorem conv1_val : (dat1 V c).arrAt 6 cfg1.N (ix2 n f) = max ((0 + ∑ j : Fin 2579, part1 V c j.val n f) + bA1 V c f) 0 := by
  rw [final1_6, ← Finset.sum_range fun j => part1 V c j n f]
  exact (k1pay1_apply _ _ n f).trans (by rw [accAt1_apply, blk1_2_apply]; rfl)

end Cert.KernelIdeal.Hand

end
-- ==== Proof.Layer1.lean ====
import proofs.«419566_j52175262711930_3_alg».proof.Proof.Conv1Val

noncomputable section

namespace Cert.KernelIdeal.Hand

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

theorem layer1_spec (c : Dev nD) (sN dN : Fin 330000 → Fin 10000) (nrm : Fin 330000 → EReal)
    (x' : Fin 10000 → Fin kdim1 → EReal) (w' : Fin kdim1 → Fin 128 → EReal) (b' : Fin 128 → EReal)
    (hX : ∀ (k : Fin 10000) (i : Fin kdim1), xA1 V c ⟨k.val, by omega⟩ i = x' k i)
    (hW : ∀ i f, wA1 V c i f = w' i f) (hB : ∀ f, bA1 V c f = b' f)
    (hS : ∀ i : Fin 330112, srcA1 V c i = BitVec.ofNat 32 (Cert.Algebra.sP sN i))
    (hD : ∀ i, dstA1 V c i = BitVec.ofNat 32 (Cert.Algebra.dP dN i))
    (hN : ∀ i, nrmA1 V c i = Cert.Algebra.nP nrm i)
    (n : Fin 10000) (f : Fin 128) :
    (dat1 V c).arrAt 6 cfg1.N (ix2 ⟨n.val, by omega⟩ f)
      = Cert.Spec.conv sN dN nrm (Cert.Spec.dense x' w') b' n f := by
  rw [conv1_val, hB f]
  exact (congrArg (fun s => max ((0 + s) + b' f) 0) (Finset.sum_congr rfl fun j _ => dif_pos j.isLt)).trans
    (Cert.Algebra.conv_bridge' sN dN nrm (dstA1 V c) (srcA1 V c) (nrmA1 V c) (fun k f => xw1 V c (ix2 k f)) _ b' hD hS hN
      (fun k f => (xw1_apply V c _ f).trans (Finset.sum_congr rfl fun i _ => by rw [hX k i, hW i f])) n f)

end Cert.KernelIdeal.Hand

end
-- ==== Proof.KernelVal.lean ====
import proofs.«419566_j52175262711930_3_alg».proof.Proof.Run
import proofs.«419566_j52175262711930_3_alg».proof.Proof.HostGlue
import proofs.«419566_j52175262711930_3_alg».proof.Proof.Layer0
import proofs.«419566_j52175262711930_3_alg».proof.Proof.Layer1
import proofs.«419566_j52175262711930_3_alg».proof.Proof.KArgs

noncomputable section

open scoped BigOperators

namespace Cert.KernelIdeal.Hand

open Cert.KernelIdeal Cert.KernelIdeal.Gen Cert.Algebra
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)
  (sN dN : Fin 330000 → Fin 10000) (nrm : Fin 330000 → EReal)
  (hs : ∀ i : Fin 330000, W3 m ρ c (Proc.devRef .tc main_v3) (ix1 i) = BitVec.ofNat 32 (sN i).val)
  (hd : ∀ i : Fin 330000, W3 m ρ c (Proc.devRef .tc main_v6) (ix1 i) = BitVec.ofNat 32 (dN i).val)
  (hn : ∀ i : Fin 330000, W3 m ρ c (Proc.devRef .tc main_v36) (ix1 i) = nrm i)
include hs hd hn

theorem kernel_layers (n : Fin 10000) (f : Fin 128) :
    W5 m ρ c (Proc.devRef .tc main_v52) (ix2 (⟨n.val, by omega⟩ : Fin 10112) f)
      = Cert.Spec.layers sN dN nrm (obsK m c) (actK m c) (w1K m c) (b1K m c) (w2K m c) (b2K m c) n f := by
  have hS : ∀ i, srcA0 (V3 m ρ) c i = BitVec.ofNat 32 (sP sN i) := fun i => by
    rw [sP, apply_dite (BitVec.ofNat 32)]
    exact (v43_apply (W2 m ρ c) i).trans (dite_congr rfl
      (fun h => (congrFun (W3_of m ρ c main_v3 (by decide)) _).symm.trans (hs ⟨i.val, h⟩)) fun _ => rfl)
  have hD : ∀ i, dstA0 (V3 m ρ) c i = BitVec.ofNat 32 (dP dN i) := fun i => by
    rw [dP, apply_dite (BitVec.ofNat 32)]
    exact (v44_apply (W2 m ρ c) i).trans (dite_congr rfl
      (fun h => (congrFun (W3_of m ρ c main_v6 (by decide)) _).symm.trans (hd ⟨i.val, h⟩)) fun _ => rfl)
  have hN : ∀ i, nrmA0 (V3 m ρ) c i = nP nrm i := fun i =>
    (v45_apply (W2 m ρ c) i).trans (dite_congr rfl (fun h => hn ⟨i.val, h⟩) fun _ => Ideal.ofBits_zero_f32)
  have h0 := layer0_spec (V3 m ρ) c sN dN nrm (Cert.Spec.feat (obsK m c) (actK m c)) (w1K m c) (b1K m c)
    (fun k i => (v48_apply (W2 m ρ c) ⟨k.val, by omega⟩ i).trans ((dif_pos k.isLt).trans (dite_congr rfl
      (fun _ => congrFun (W2_arg m ρ c main_arg0 (by decide)) _) fun _ => congrFun (W2_arg m ρ c main_arg1 (by decide)) _)))
    (fun i f => congrFun (W3_arg m ρ c main_arg3 (by decide)) (ix2 i f))
    (fun f => (v49_apply (W2 m ρ c) f).trans (congrFun (W2_arg m ρ c main_arg4 (by decide)) _)) hS hD hN
  exact (congrFun (W5_arr m ρ c 6) _).trans (layer1_spec (V4 m ρ) c sN dN nrm _ (w2K m c) (b2K m c)
    (fun k i => (congrFun (W4_arr m ρ c 6) _).trans (h0 k i))
    (fun i f => congrFun (W4_arg m ρ c main_arg5 (by decide)) (ix2 i f))
    (fun f => (congrFun (W4_keep m ρ c main_v50 (by decide)) _).trans
      ((v50_apply (W2 m ρ c) f).trans (congrFun (W2_arg m ρ c main_arg6 (by decide)) _)))
    (fun i => (congrFun (W4_keep m ρ c main_v43 (by decide)) _).trans (hS i))
    (fun i => (congrFun (W4_keep m ρ c main_v44 (by decide)) _).trans (hD i))
    (fun i => (congrFun (W4_keep m ρ c main_v45 (by decide)) _).trans (hN i)) n f)

end Cert.KernelIdeal.Hand

end
-- ==== Proof.R2Final.lean ====
import proofs.«419566_j52175262711930_3_alg».proof.Proof.R2Data
import Idealize.ShloMosaic.Lib.Pipeline.Value

noncomputable section

namespace Cert.KernelIdeal.Hand

open Cert.KernelIdeal Cert.KernelIdeal.Gen Idealize.ShloMosaic Idealize.ShloMosaic.TcCoe

variable {F : FTy → Type} [FloatOps F]
  (V : (c : Dev nD) → (b : Ref sig .tc) → Buf (Elt F) ((c : Thread nD τ).loc b))

theorem idx2 : ∀ t : Fin cfg2.N, win2_9.index t 0 = t ∧ win2_9.index t 1 = 0 := by decide +kernel

theorem inj2 (t t' : Fin cfg2.N) (h : win2_9.index t = win2_9.index t') : t = t' :=
  Fin.ext (by have := congrFun h 0; rwa [(idx2 t).1, (idx2 t').1] at this)

variable (c : Dev nD) (t : Fin cfg2.N) (y : S128x1.Idx) (i : S10112x1.Idx)
  (hi0 : (i 0).val = 128 * t.val + (y 0).val) (hi1 : (i 1).val = (y 1).val)
include hi0 hi1

theorem emb2 : (win2_9.rect t).emb y = i :=
  Shape.idx_ext₂ ((win2_9.rect_emb_val t y 0).trans (by rw [(idx2 t).1, hi0]; exact congrArg (· + (y 0).val) (Nat.mul_comm _ _)))
    ((win2_9.rect_emb_val_of_index_zero t 1 (idx2 t).2 y).trans hi1.symm)

theorem final2_9 : ((dat2 V c).arrAt 9 cfg2.N : S10112x1.Idx → Elt F .f32) i
    = out2_9 (iblk2 V c 0 t) (iblk2 V c 1 t) (iblk2 V c 2 t) (iblk2 V c 3 t) (iblk2 V c 4 t) y := by
  obtain rfl := emb2 t y i hi0 hi1
  exact (dat2 V c).arrAt_emb_eq_flushed 9 (fun t t' _ _ hne => (cfg2.win 9).disjoint_blk fun h => hne (inj2 t t' h)) t (flush2_9 t) y

theorem final2_10 : ((dat2 V c).arrAt 10 cfg2.N : S10112x1.Idx → Elt F .f32) i
    = out2_10 (iblk2 V c 0 t) (iblk2 V c 5 t) (iblk2 V c 6 t) (iblk2 V c 7 t) (iblk2 V c 8 t) y := by
  obtain rfl := emb2 t y i hi0 hi1
  exact (dat2 V c).arrAt_emb_eq_flushed 10 (fun t t' _ _ hne => (cfg2.win 10).disjoint_blk fun h => hne (inj2 t t' h)) t (flush2_10 t) y

end Cert.KernelIdeal.Hand

end
-- ==== Proof.Q2Val.lean ====
import proofs.«419566_j52175262711930_3_alg».proof.Proof.R2Data
import proofs.«419566_j52175262711930_3_alg».proof.Proof.R2Final
import proofs.«419566_j52175262711930_3_alg».proof.Proof.PayIdeal

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

set_option maxRecDepth 16384

variable (V : (c : Dev nD) → (b : Ref sig .tc) → Buf (Elt Ideal) ((c : Thread nD τ).loc b)) (c : Dev nD)
  (t : Fin cfg2.N)

theorem q2_zeros : (![0, 0] : Fin 2 → Nat) = fun _ => 0 := funext fun a => by fin_cases a <;> rfl

theorem q2_idx_0 : ∀ t : Fin cfg2.N, win2_0.index t 0 = t.val ∧ win2_0.index t 1 = 0 :=
  (by decide +kernel : ∀ t : Fin grid2.N, win2_0.index t 0 = t.val ∧ win2_0.index t 1 = 0)

theorem q2_blk_0 (y : Fin 128) (r : Fin 10112) (hr : r.val = 128 * t.val + y.val) (j : Fin 128) :
    iblk2 V c 0 t (ix2 y j) = V c (Pipeline.arrRef spec2 0) (ix2 r j) := by
  show V c _ _ = V c _ _
  congr 1
  funext a; apply Fin.ext
  match a with
  | ⟨0, _⟩ => show win2_0.index t 0 * 128 + 1 * y.val = r.val; rw [(q2_idx_0 t).1, hr]; omega
  | ⟨1, _⟩ => show win2_0.index t 1 * 128 + 1 * j.val = j.val; rw [(q2_idx_0 t).2]; omega

theorem q2_blk_1 (a b : Fin 128) : iblk2 V c 1 t (ix2 a b) = V c (Pipeline.arrRef spec2 1) (ix2 a b) := by
  show V c _ _ = V c _ _; congr 1; funext ax; apply Fin.ext; fin_cases ax <;> (show 0 * _ + 1 * _ = _; omega)

theorem q2_blk_2 (a : Fin 1) (b : Fin 128) : iblk2 V c 2 t (ix2 a b) = V c (Pipeline.arrRef spec2 2) (ix2 a b) := by
  show V c _ _ = V c _ _; congr 1; funext ax; apply Fin.ext; fin_cases ax <;> (show 0 * _ + 1 * _ = _; omega)

theorem q2_blk_3 (a : Fin 128) (b : Fin 1) : iblk2 V c 3 t (ix2 a b) = V c (Pipeline.arrRef spec2 3) (ix2 a b) := by
  show V c _ _ = V c _ _; congr 1; funext ax; apply Fin.ext; fin_cases ax <;> (show 0 * _ + 1 * _ = _; omega)

theorem q2_blk_4 (a b : Fin 1) : iblk2 V c 4 t (ix2 a b) = V c (Pipeline.arrRef spec2 4) (ix2 a b) := by
  show V c _ _ = V c _ _; congr 1; funext ax; apply Fin.ext; fin_cases ax <;> (show 0 * _ + 1 * _ = _; omega)

theorem q2_blk_5 (a b : Fin 128) : iblk2 V c 5 t (ix2 a b) = V c (Pipeline.arrRef spec2 5) (ix2 a b) := by
  show V c _ _ = V c _ _; congr 1; funext ax; apply Fin.ext; fin_cases ax <;> (show 0 * _ + 1 * _ = _; omega)

theorem q2_blk_6 (a : Fin 1) (b : Fin 128) : iblk2 V c 6 t (ix2 a b) = V c (Pipeline.arrRef spec2 6) (ix2 a b) := by
  show V c _ _ = V c _ _; congr 1; funext ax; apply Fin.ext; fin_cases ax <;> (show 0 * _ + 1 * _ = _; omega)

theorem q2_blk_7 (a : Fin 128) (b : Fin 1) : iblk2 V c 7 t (ix2 a b) = V c (Pipeline.arrRef spec2 7) (ix2 a b) := by
  show V c _ _ = V c _ _; congr 1; funext ax; apply Fin.ext; fin_cases ax <;> (show 0 * _ + 1 * _ = _; omega)

theorem q2_blk_8 (a b : Fin 1) : iblk2 V c 8 t (ix2 a b) = V c (Pipeline.arrRef spec2 8) (ix2 a b) := by
  show V c _ _ = V c _ _; congr 1; funext ax; apply Fin.ext; fin_cases ax <;> (show 0 * _ + 1 * _ = _; omega)

abbrev q2rd {n0 n1 : Nat} (X : (⟨2, ![n0, n1]⟩ : Shape).Idx → Elt Ideal .f32) (a : Fin n0) (b : Fin n1) : EReal := X (ix2 a b)

theorem q2_row (r : Fin 10112) : ∃ (t : Fin cfg2.N) (y : Fin 128), r.val = 128 * t.val + y.val :=
  ⟨⟨r.val / 128, by have := r.isLt; rw [show cfg2.N = 79 from N_2]; omega⟩, ⟨r.val % 128, Nat.mod_lt _ (by decide)⟩,
    (Nat.div_add_mod r.val 128).symm⟩

theorem q2_val_9 (r : Fin 10112) :
    q2rd ((dat2 V c).arrAt 9 cfg2.N) r 0
      = (∑ k : Fin 128, max ((∑ j : Fin 128, q2rd (V c (Pipeline.arrRef spec2 0)) r j * q2rd (V c (Pipeline.arrRef spec2 1)) j k) + q2rd (V c (Pipeline.arrRef spec2 2)) 0 k) 0 * q2rd (V c (Pipeline.arrRef spec2 3)) k 0) + q2rd (V c (Pipeline.arrRef spec2 4)) 0 0 := by
  obtain ⟨t, y, h⟩ := q2_row r
  unfold q2rd
  rw [final2_9 V c t (ix2 y 0) (ix2 r 0) h rfl]
  unfold out2_9
  rw [View.canon_unit_zero q2_zeros, qpay3_apply]
  simp only [q2_blk_0 V c t y r h, q2_blk_1 V c t, q2_blk_2 V c t, q2_blk_3 V c t, q2_blk_4 V c t]

theorem q2_val_10 (r : Fin 10112) :
    q2rd ((dat2 V c).arrAt 10 cfg2.N) r 0
      = (∑ k : Fin 128, max ((∑ j : Fin 128, q2rd (V c (Pipeline.arrRef spec2 0)) r j * q2rd (V c (Pipeline.arrRef spec2 5)) j k) + q2rd (V c (Pipeline.arrRef spec2 6)) 0 k) 0 * q2rd (V c (Pipeline.arrRef spec2 7)) k 0) + q2rd (V c (Pipeline.arrRef spec2 8)) 0 0 := by
  obtain ⟨t, y, h⟩ := q2_row r
  unfold q2rd
  rw [final2_10 V c t (ix2 y 0) (ix2 r 0) h rfl]
  unfold out2_10
  rw [View.canon_unit_zero q2_zeros, qpay14_apply]
  simp only [q2_blk_0 V c t y r h, q2_blk_5 V c t, q2_blk_6 V c t, q2_blk_7 V c t, q2_blk_8 V c t]

end Cert.KernelIdeal.Hand

end
-- ==== Proof.KernelHead.lean ====
import proofs.«419566_j52175262711930_3_alg».proof.Proof.Run
import proofs.«419566_j52175262711930_3_alg».proof.Proof.HostGlue
import proofs.«419566_j52175262711930_3_alg».proof.Proof.Q2Val
import proofs.«419566_j52175262711930_3_alg».proof.Proof.Algebra
import proofs.«419566_j52175262711930_3_alg».proof.Proof.Spec
import proofs.«419566_j52175262711930_3_alg».proof.Proof.KArgs

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx

theorem head_of (L : Fin 10000 → Fin 128 → EReal) {X : S10112x128.Idx → EReal} {A1 : S128x128.Idx → EReal}
    {A2 : S1x128.Idx → EReal} {A3 : S128x1.Idx → EReal} {A4 : S1x1.Idx → EReal} {wa : Fin 128 → Fin 128 → EReal}
    {ba wb : Fin 128 → EReal} {bb : EReal} (n : Fin 10000) (hx : ∀ a j, X (ix2 ⟨a.val, by omega⟩ j) = L a j)
    (h1 : ∀ j k, A1 (ix2 j k) = wa j k) (h2 : ∀ k, A2 (ix2 0 k) = ba k) (h3 : ∀ k, A3 (ix2 k 0) = wb k)
    (h4 : A4 (ix2 0 0) = bb) :
    (∑ k : Fin 128, max ((∑ j : Fin 128, X (ix2 ⟨n.val, by omega⟩ j) * A1 (ix2 j k)) + A2 (ix2 0 k)) 0 * A3 (ix2 k 0))
      + A4 (ix2 0 0) = Cert.Spec.head L wa ba wb bb n := by
  simp only [hx, h1, h2, h3, h4, Cert.Spec.head, Cert.Spec.dense, Cert.Spec.relu]

variable (m : (ℓ : Loc nD τ sig) → Buf (Elt Ideal) ℓ) (ρ : Dev nD → PrngReg) (c : Dev nD)
  (L : Fin 10000 → Fin 128 → EReal)
  (hL : ∀ (a : Fin 10000) (j : Fin 128), (W5 m ρ c (Proc.devRef .tc main_v52)) (ix2 ⟨a.val, by omega⟩ j) = L a j)
  (n : Fin 10000)
include hL

theorem kernel_head1 : (W8 m ρ c (Proc.devRef .tc main_v58)) (ix2 n (0 : Fin 1))
      = Cert.Spec.head L (waK m c) (baK m c) (wbK m c) (bbK m c) n :=
  (v58_apply (W7 m ρ c) n).trans ((congrFun (W7_arr m ρ c 9) _).trans ((q2_val_9 (V6 m ρ) c ⟨n.val, by omega⟩).trans
    (head_of L n (fun a j => (congrFun (W6_of m ρ c main_v52 (by decide)) _).trans (hL a j))
      (fun j k => congrFun (W6_arg m ρ c main_arg7 (by decide)) (ix2 j k))
      (fun k => (v53_apply (W5 m ρ c) k).trans (congrFun (W5_arg m ρ c main_arg8 (by decide)) (ix1 k)))
      (fun k => congrFun (W6_arg m ρ c main_arg9 (by decide)) (ix2 k 0))
      ((v54_apply (W5 m ρ c)).trans (congrFun (W5_arg m ρ c main_arg10 (by decide)) (ix1 0))))))

theorem kernel_head2 : (W8 m ρ c (Proc.devRef .tc main_v59)) (ix2 n (0 : Fin 1))
      = Cert.Spec.head L (wa2K m c) (ba2K m c) (wb2K m c) (bb2K m c) n :=
  (v59_apply (W7 m ρ c) n).trans ((congrFun (W7_arr m ρ c 10) _).trans ((q2_val_10 (V6 m ρ) c ⟨n.val, by omega⟩).trans
    (head_of L n (fun a j => (congrFun (W6_of m ρ c main_v52 (by decide)) _).trans (hL a j))
      (fun j k => congrFun (W6_arg m ρ c main_arg11 (by decide)) (ix2 j k))
      (fun k => (v55_apply (W5 m ρ c) k).trans (congrFun (W5_arg m ρ c main_arg12 (by decide)) (ix1 k)))
      (fun k => congrFun (W6_arg m ρ c main_arg13 (by decide)) (ix2 k 0))
      ((v56_apply (W5 m ρ c)).trans (congrFun (W5_arg m ρ c main_arg14 (by decide)) (ix1 0))))))

end Cert.KernelIdeal.Hand

end
-- ==== Proof.Assemble.lean ====
import proofs.«419566_j52175262711930_3_alg».proof.Defs
import proofs.«419566_j52175262711930_3_alg».proof.Proof.Gen.Kernel
import proofs.«419566_j52175262711930_3_alg».proof.Proof.Gen.KernelIdeal
import proofs.«419566_j52175262711930_3_alg».proof.Proof.Gen.ReferenceIdeal
import proofs.«419566_j52175262711930_3_alg».proof.Proof.Gen.Pre_finite_inputs
import proofs.«419566_j52175262711930_3_alg».proof.Proof.Run
import proofs.«419566_j52175262711930_3_alg».proof.Proof.KRun
import proofs.«419566_j52175262711930_3_alg».proof.Proof.KArgs
import proofs.«419566_j52175262711930_3_alg».proof.Proof.RefRunP
import proofs.«419566_j52175262711930_3_alg».proof.Proof.RefReadP
import proofs.«419566_j52175262711930_3_alg».proof.Proof.RefAll
import proofs.«419566_j52175262711930_3_alg».proof.Proof.EdgeWords
import proofs.«419566_j52175262711930_3_alg».proof.Proof.Algebra
import proofs.«419566_j52175262711930_3_alg».proof.Proof.HostGlue
import proofs.«419566_j52175262711930_3_alg».proof.Proof.KernelVal
import proofs.«419566_j52175262711930_3_alg».proof.Proof.KernelHead

set_option maxRecDepth 16384

noncomputable section

open scoped BigOperators

namespace Cert.Proof.Hand

open Idealize.ShloMosaic Idealize.ShloMosaic.TcCoe Idealize.SL.Sem Idealize.ShloMosaic.ValueIdx
open Cert.KernelIdeal Cert.KernelIdeal.Hand

theorem frame_K : Cert.frame_Kernel := fun m ρ _ => Cert.Kernel.Hand.frame m ρ
theorem frame_KI : Cert.frame_KernelIdeal := fun m ρ _ => Cert.KernelIdeal.Hand.frame m ρ
theorem frame_RI : Cert.frame_ReferenceIdeal := fun m ρ _ =>
  (θ_run Cert.ReferenceIdeal.defs _ _).mono (fun _ h c => (h c).2.2) (Cert.ReferenceIdeal.ValueP.run (F := Ideal) m ρ)

theorem algebraic : Cert.algebraic_KernelIdeal_ReferenceIdeal := by
  intro m g m' g' hpre hagree
  have edge (c : Dev nD) : ∀ j : Cert.ReferenceIdeal.S2x320000.Idx, ∃ k : Fin 10000,
      m ((c.tc : Thread nD τ).loc main_arg2) j = BitVec.ofNat 32 k.val :=
    Cert.ReferenceIdeal.Hand.edge_words_of_pre _ _ _ _ _ _ _ _ _ _ _ _ _ _ _ (hpre c)
  have hs (c : Dev nD) := Cert.ReferenceIdeal.Hand.hs_sNof _ (edge c)
  have hd (c : Dev nD) := Cert.ReferenceIdeal.Hand.hd_dNof _ (edge c)
  have layers (c : Dev nD) := kernel_layers m g c _ _ _
    (fun i => (congrFun ((W3_of m g c main_v3 (by decide)).trans ((W2_of m g c main_v3 (by decide)).trans (pre_v3 (W0 m g c)))) (ix1 i)).trans (hs c i))
    (fun i => (congrFun ((W3_of m g c main_v6 (by decide)).trans ((W2_of m g c main_v6 (by decide)).trans (pre_v6 (W0 m g c)))) (ix1 i)).trans (hd c i))
    (fun i => congrFun (pre_v36 (W0 m g c)) (ix1 i))
  have res1 (c : Dev nD) : Cert.ReferenceIdeal.ValueP.res_main_v97 m' c = W8 m g c (Proc.devRef .tc main_v58) := by
    funext i
    obtain ⟨n, u, rfl⟩ : ∃ (n : Fin 10000) (u : Fin 1), i = ix2 n u := ⟨i 0, i 1, eq_ix2 i⟩
    obtain rfl : u = 0 := Subsingleton.elim _ _
    obtain ⟨h0, h1, h2, h3, h4, h5, h6, h7, h8, h9, h10, -⟩ := hagree c
    unfold Cert.ReferenceIdeal.ValueP.res_main_v97
    rw [h0, h1, h2, h3, h4, h5, h6, h7, h8, h9, h10]
    exact (Cert.ReferenceIdeal.Hand.ref_q1 _ _ _ _ _ _ _ _ _ _ _ _ _ (hs c) (hd c) n).trans (kernel_head1 m g c _ (layers c) n).symm
  have res2 (c : Dev nD) : Cert.ReferenceIdeal.ValueP.res_main_v106 m' c = W8 m g c (Proc.devRef .tc main_v59) := by
    funext i
    obtain ⟨n, u, rfl⟩ : ∃ (n : Fin 10000) (u : Fin 1), i = ix2 n u := ⟨i 0, i 1, eq_ix2 i⟩
    obtain rfl : u = 0 := Subsingleton.elim _ _
    obtain ⟨h0, h1, h2, h3, h4, h5, h6, -, -, -, -, h11, h12, h13, h14⟩ := hagree c
    unfold Cert.ReferenceIdeal.ValueP.res_main_v106
    rw [h0, h1, h2, h3, h4, h5, h6, h11, h12, h13, h14]
    exact (Cert.ReferenceIdeal.Hand.ref_q2 _ _ _ _ _ _ _ _ _ _ _ _ _ (hs c) (hd c) n).trans (kernel_head2 m g c _ (layers c) n).symm
  refine ⟨fun c => W8 m g c (Proc.devRef .tc main_v58), fun c => W8 m g c (Proc.devRef .tc main_v59),
    (θ_run defs _ _).mono (fun r h c =>
      have A : ∀ b : Ref sig .tc, b ∈ mainArgs → ¬ (Proc.devRef .tc b : DevRef τ sig).isScoped →
          r.2.mem ((c.tc : Thread nD τ).loc b) = m ((c.tc : Thread nD τ).loc b) :=
        fun b hb hs => (h c _ (mem_uc b hs)).trans (W8_arg m g c b hb)
      ⟨h c _ (mem_uc main_v58 (by decide)), h c _ (mem_uc main_v59 (by decide)),
        A main_arg0 (by decide) (by decide), A main_arg1 (by decide) (by decide), A main_arg2 (by decide) (by decide),
        A main_arg3 (by decide) (by decide), A main_arg4 (by decide) (by decide), A main_arg5 (by decide) (by decide),
        A main_arg6 (by decide) (by decide), A main_arg7 (by decide) (by decide), A main_arg8 (by decide) (by decide),
        A main_arg9 (by decide) (by decide), A main_arg10 (by decide) (by decide), A main_arg11 (by decide) (by decide),
        A main_arg12 (by decide) (by decide), A main_arg13 (by decide) (by decide), A main_arg14 (by decide) (by decide)⟩)
      (run (F := Ideal) m g),
    (θ_run Cert.ReferenceIdeal.defs _ _).mono (fun _ h c => ⟨(h c).1.trans (res1 c), (h c).2.1.trans (res2 c), (h c).2.2⟩)
      (Cert.ReferenceIdeal.ValueP.run (F := Ideal) m' g')⟩

end Cert.Proof.Hand

end
-- ==== Proof.lean ====
import proofs.«419566_j52175262711930_3_alg».proof.Proof.Assemble

noncomputable section

namespace Cert.Proof

theorem claim : Cert.Claim := ⟨Cert.Kernel.Gen.facts, Cert.KernelIdeal.Gen.facts, Cert.ReferenceIdeal.Gen.facts, Cert.Pre_finite_inputs.Gen.facts,
  Hand.frame_K, Hand.frame_KI, Hand.frame_RI, trivial, Hand.algebraic⟩

end Cert.Proof

end
